-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x768 : Shape := ⟨2, ![256, 768]⟩
abbrev S768 : Shape := ⟨1, ![768]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg9 : FVec F S128x256 .f32) (main_arg10 : FVec F S256 .f32) (main_arg11 : FVec F S256x768 .f32) (main_arg12 : FVec F S768 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x768 .f32 := Host.absf main_arg11
  let main_cst_16 : FVec F S_ .f32 := constant S_ .f32 0x7F800000#32
  let main_v45 : FVec F S256x768 .f32 := broadcastInDim S256x768 ![] bcast_S_S256x768 main_cst_16
  let main_v46 : IVec S256x768 1 := cmpf .olt main_v44 main_v45
  let main_c_17 : IVec S_ 1 := constantI S_ 1 1#1
  let main_v47 : IVec S_ 1 := (fun x v => Host.reduce IntOp.andi x v reducesTo_S256x768_S_d0_1 h_S_) main_v46 main_c_17
  let main_v48 : IVec S_ 1 := andi main_v43 main_v47
  let main_v49 : FVec F S768 .f32 := Host.absf main_arg12
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S256 .f32) (main_arg11 : FVec F S256x768 .f32) (main_arg12 : FVec F S768 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x768 .f32) (main_arg12 : FVec F S768 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x768 : Shape := ⟨2, ![256, 768]⟩
abbrev S768 : Shape := ⟨1, ![768]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x256 : Shape := ⟨2, ![1, 256]⟩
abbrev S5000x256 : Shape := ⟨2, ![5000, 256]⟩
abbrev S256x256 : Shape := ⟨2, ![256, 256]⟩
abbrev S1x768 : Shape := ⟨2, ![1, 768]⟩

abbrev nBuf : Space → Nat
  | .hbm => 77
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x768, .f32⟩
  | .hbm, ⟨12, _⟩ => ⟨S768, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1, .i32⟩
  | .hbm, ⟨29, _⟩ => ⟨S50000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .bf16⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .bf16⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .bf16⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S128x256, .f32⟩
  | .hbm, ⟨75, _⟩ => ⟨S1x256, .f32⟩
  | .hbm, ⟨76, _⟩ => ⟨S256x768, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x1, .f32⟩
  | .local _ .vmem, ⟨22, _⟩ => ⟨S5000x1, .f32⟩
  | .local _ .vmem, ⟨23, _⟩ => ⟨S128, .f32⟩
  | .local _ .vmem, ⟨24, _⟩ => ⟨S128x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x128, .bf16⟩
  | .local _ .vmem, ⟨30, _⟩ => ⟨S5000x128, .bf16⟩
  | .local _ .vmem, ⟨31, _⟩ => ⟨S5000x1, .f32⟩
  | .local _ .vmem, ⟨32, _⟩ => ⟨S5000x1, .f32⟩
  | .local _ .vmem, ⟨33, _⟩ => ⟨S128, .f32⟩
  | .local _ .vmem, ⟨34, _⟩ => ⟨S5000x1, .i32⟩
  | .local _ .vmem, ⟨35, _⟩ => ⟨S5000x1, .i32⟩
  | .local _ .vmem, ⟨36, _⟩ => ⟨S128x256, .f32⟩
  | .local _ .vmem, ⟨37, _⟩ => ⟨S1x256, .f32⟩
  | .local _ .vmem, ⟨38, _⟩ => ⟨S128x256, .f32⟩
  | .local _ .vmem, ⟨39, _⟩ => ⟨S1x256, .f32⟩
  | .local _ .vmem, ⟨40, _⟩ => ⟨S128x256, .f32⟩
  | .local _ .vmem, ⟨41, _⟩ => ⟨S1x256, .f32⟩
  | .local _ .vmem, ⟨42, _⟩ => ⟨S128x256, .f32⟩
  | .local _ .vmem, ⟨43, _⟩ => ⟨S256, .f32⟩
  | .local _ .vmem, ⟨44, _⟩ => ⟨S256x768, .f32⟩
  | .local _ .vmem, ⟨45, _⟩ => ⟨S768, .f32⟩
  | .local _ .vmem, ⟨46, _⟩ => ⟨S256x768, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_18 : BitVec 32 := 0#32
  let v45 : BitVec 1 := Scalar.cmpi .ne v44 c0_i32_18
  v45

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x768 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  reduces_S5000x256_S256 : S5000x256.Reduces [0] S256
  shapeCasts_S256_S1x256 : S256.ShapeCasts S1x256
  broadcasts_S1x256_S128x256 : S1x256.Broadcasts S128x256
  inb_S256_S256_0 : ∀ a, (![0] : Fin 1 → Nat) a + S256.size a ≤ S256.size a
  h_S256 : 0 < S256.numel
  broadcasts_S1x256_S256x256 : S1x256.Broadcasts S256x256
  inb_S256x768_S256x768_0_0 : ∀ a, (![0, 0] : Fin 2 → Nat) a + S256x768.size a ≤ S256x768.size a
  h_S256x768 : 0 < S256x768.numel
  inb_S768_S768_0 : ∀ a, (![0] : Fin 1 → Nat) a + S768.size a ≤ S768.size a
  h_S768 : 0 < S768.numel
  shapeCasts_S768_S1x768 : S768.ShapeCasts S1x768
  shapeCasts_S1x768_S1x768 : S1x768.ShapeCasts S1x768
  broadcasts_S1x768_S256x768 : S1x768.Broadcasts S256x768
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S5000x256_S128x256_0_0_1_1_n_n_wf : DotDims.WF S5000x128 S5000x256 S128x256 [0] [0] [1] [1] [] []
  dot_S128x256_S128x256_S256x256_0_0_1_1_n_n_wf : DotDims.WF S128x256 S128x256 S256x256 [0] [0] [1] [1] [] []
  dot_S256x256_S256x768_S256x768_1_0_0_1_n_n_wf : DotDims.WF S256x256 S256x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .bf16 = 32 ∨ (Rect.block (s := S50000x128) S5000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .i32 = 32 ∨ (Rect.block (s := S50000x1) S5000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .f32 = 32 ∨ (Rect.block (s := S128x256) S128x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x256.size a ≤ S128x256.size a
  hwx4_0 : ∀ i : grid4.Coords, EltTy.bits .f32 = 32 ∨ (Rect.block (s := S128x256) S128x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x768.size a ≤ S256x768.size a
  hwx4_4 : ∀ i : grid4.Coords, EltTy.bits .f32 = 32 ∨ (Rect.block (s := S256x768) S256x768.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S768.size a ≤ S768.size a
  hwx4_5 : ∀ i : grid4.Coords, EltTy.bits .f32 = 32 ∨ (Rect.block (s := S768) S768.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x768.size a ≤ S256x768.size a
  hwx4_6 : ∀ i : grid4.Coords, EltTy.bits .f32 = 32 ∨ (Rect.block (s := S256x768) S256x768.size (cc4_transform_6 i) (hinb4_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S5000x256_S128x256_0_0_1_1_n_n : DotDims S5000x128 S5000x256 S128x256 where
  lhsContracting := [0]
  rhsContracting := [0]
  lhsNonContracting := [1]
  rhsNonContracting := [1]
  lhsBatch := []
  rhsBatch := []
  wf := dot_S5000x128_S5000x256_S128x256_0_0_1_1_n_n_wf
def dot_S128x256_S128x256_S256x256_0_0_1_1_n_n : DotDims S128x256 S128x256 S256x256 where
  lhsContracting := [0]
  rhsContracting := [0]
  lhsNonContracting := [1]
  rhsNonContracting := [1]
  lhsBatch := []
  rhsBatch := []
  wf := dot_S128x256_S128x256_S256x256_0_0_1_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v49_0) S128x256.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49_1) S1x256.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v49_0) S128x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v49_1) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S256x768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S768.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S256x768.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x768 : Shape := ⟨2, ![256, 768]⟩
abbrev S768 : Shape := ⟨1, ![768]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256x1 : Shape := ⟨2, ![256, 1]⟩
abbrev S256x256 : Shape := ⟨2, ![256, 256]⟩
abbrev S1x256 : Shape := ⟨2, ![1, 256]⟩
abbrev S1x768 : Shape := ⟨2, ![1, 768]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S256x768, .f32⟩
  | 12 => ⟨S768, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S50000, .i32⟩
  | 19 => ⟨S850000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000, .i32⟩
  | 9 => ⟨S850000, .i32⟩
  | 10 => ⟨S850000, .i32⟩
  | 11 => ⟨S_, .f32⟩
  | 12 => ⟨S850000, .f32⟩
  | 13 => ⟨S_, .f32⟩
  | 14 => ⟨S50000, .f32⟩
  | 15 => ⟨S850000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x128, .f32⟩
  | 53 => ⟨S850000x1, .f32⟩
  | 54 => ⟨S850000x128, .f32⟩
  | 55 => ⟨S850000x128, .f32⟩
  | 56 => ⟨S_, .f32⟩
  | 57 => ⟨S50000x128, .f32⟩
  | 58 => ⟨S850000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S256x128, .f32⟩
  | 65 => ⟨S50000x1, .i32⟩
  | 66 => ⟨S256x128, .f32⟩
  | 67 => ⟨S_, .f32⟩
  | 68 => ⟨S50000, .f32⟩
  | 69 => ⟨S_, .f32⟩
  | 70 => ⟨S256, .f32⟩
  | 71 => ⟨S50000x1, .i32⟩
  | 72 => ⟨S256, .f32⟩
  | 73 => ⟨S_, .f32⟩
  | 74 => ⟨S_, .f32⟩
  | 75 => ⟨S256, .f32⟩
  | 76 => ⟨S256, .f32⟩
  | 77 => ⟨S256x1, .f32⟩
  | 78 => ⟨S256x128, .f32⟩
  | 79 => ⟨S256x128, .f32⟩
  | 80 => ⟨S256x256, .f32⟩
  | 81 => ⟨S1x256, .f32⟩
  | 82 => ⟨S256x256, .f32⟩
  | 83 => ⟨S256x256, .f32⟩
  | 84 => ⟨S_, .f32⟩
  | 85 => ⟨S256x256, .f32⟩
  | 86 => ⟨S256x256, .f32⟩
  | 87 => ⟨S256x768, .f32⟩
  | 88 => ⟨S1x768, .f32⟩
  | 89 => ⟨S256x768, .f32⟩
  | 90 => ⟨S256x768, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_31 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_32 : Ref sig .tc := ⟨.hbm, 195, rfl⟩
abbrev main_v138 : Ref sig .tc := ⟨.hbm, 196, rfl⟩
abbrev main_cst_33 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_34 : Ref sig .tc := ⟨.hbm, 201, rfl⟩
abbrev main_call5_v0 : Ref sig .tc := ⟨.hbm, 202, rfl⟩
abbrev main_call5_v1 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_call6_cst : Ref sig .tc := ⟨.hbm, 212, rfl⟩
abbrev main_call6_v0 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x256_S256x256_1_0_0_1_n_n_wf : DotDims.WF S256x128 S128x256 S256x256 [1] [0] [0] [1] [] []
  dot_S256x256_S256x768_S256x768_1_0_0_1_n_n_wf : DotDims.WF S256x256 S256x768 S256x768 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf

class Facts : Prop extends Facts₀ where

variable [Facts]
-- ==== Proof.K.LaunchP.lean ====
import proofs.«430777_j3556232921556_3_alg».proof.Proof.Gen.Kernel
import Idealize.ShloMosaic.Lib.Pipeline.Kit
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 5 → List (DmaSem sig) :=
  fun | 0 => Pipeline.specSems spec0 | 1 => Pipeline.specSems spec1 | 2 => Pipeline.specSems spec2 | 3 => Pipeline.specSems spec3 | 4 => Pipeline.specSems spec4 | ⟨_ + 5, h⟩ => absurd h (Nat.not_lt.2 (Nat.le_add_left _ _))

theorem semsDistinct : ∀ p : Fin 5, (semTab p).Nodup := by decide

theorem semsDisjoint : ∀ p p' : Fin 5, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | 2 => rfl | 3 => rfl | 4 => rfl | ⟨_ + 5, h⟩ => absurd h (Nat.not_lt.2 (Nat.le_add_left _ _))) semsDistinct semsDisjoint

theorem winFacts0 : Pipeline.WinFacts spec0 := by decide

theorem block_pos0 : ∀ w : Fin 4, 0 < (spec0 w).block.numel := by decide

theorem arr_whole0 : ∀ w : Fin 4, (spec0 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole0 : ∀ (w : Fin 4) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | ⟨_ + 4, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem bigSep_W0 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem winFacts1 : Pipeline.WinFacts spec1 := by decide

theorem block_pos1 : ∀ w : Fin 6, 0 < (spec1 w).block.numel := by decide

theorem arr_whole1 : ∀ w : Fin 6, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
theorem stage_whole1 : ∀ (w : Fin 6) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | ⟨_ + 6, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem bigSep_W1 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem winFacts2 : Pipeline.WinFacts spec2 := by decide

theorem block_pos2 : ∀ w : Fin 6, 0 < (spec2 w).block.numel := by decide

theorem arr_whole2 : ∀ w : Fin 6, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
theorem stage_whole2 : ∀ (w : Fin 6) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | ⟨_ + 6, h⟩ => absurd h (Nat.not_lt.2 (Nat.le_add_left _ _))

theorem launch2 : Pipeline.LaunchFacts (nD := nD) (τ := τ) cfgs 2 := ⟨cellOf_inj, winFacts2, block_pos2, arr_whole2, stage_whole2⟩

theorem bigSep_W2 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem winFacts3 : Pipeline.WinFacts spec3 := by decide

theorem block_pos3 : ∀ w : Fin 7, 0 < (spec3 w).block.numel := by decide

theorem arr_whole3 : ∀ w : Fin 7, (spec3 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole3 : ∀ (w : Fin 7) (s : Fin (spec3 w).nbuf), ((spec3 w).stage s).IsWhole := fun | 0 => fun s => hstage3_0 (s.cast nbuf3_0) | 1 => fun s => hstage3_1 (s.cast nbuf3_1) | 2 => fun s => hstage3_2 (s.cast nbuf3_2) | 3 => fun s => hstage3_3 (s.cast nbuf3_3) | 4 => fun s => hstage3_4 (s.cast nbuf3_4) | 5 => fun s => hstage3_5 (s.cast nbuf3_5) | 6 => fun s => hstage3_6 (s.cast nbuf3_6) | ⟨_ + 7, h⟩ => absurd h (Nat.not_lt.2 (Nat.le_add_left _ _))

theorem launch3 : Pipeline.LaunchFacts (nD := nD) (τ := τ) cfgs 3 := ⟨cellOf_inj, winFacts3, block_pos3, arr_whole3, stage_whole3⟩

theorem N_3 : grid3.N = 10 := by decide

def t3_0 : Fin grid3.N := ⟨0, by rw [N_3]; decide⟩

theorem bigSep_W3 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f) ∗ (∃ f : Buf Val ((c : Thread nD τ).loc cc3_scratch1), ((c : Thread nD τ).loc cc3_scratch1) ↦{fullShare} f))
          ∗ Pipeline.scopedRestBut (Ix := Ix) (Name := Name) (U := U) (Lvl := Lvl) (Val := Val) spec3 c [cc3_scratch0, cc3_scratch1]) :=
  Pipeline.scopedRest_split_of_list spec3 c [cc3_scratch0, cc3_scratch1] (by decide) (by decide)

theorem winFacts4 : Pipeline.WinFacts spec4 := by decide

theorem block_pos4 : ∀ w : Fin 7, 0 < (spec4 w).block.numel := by decide

theorem arr_whole4 : ∀ w : Fin 7, (spec4 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole4 : ∀ (w : Fin 7) (s : Fin (spec4 w).nbuf), ((spec4 w).stage s).IsWhole := fun | 0 => fun s => hstage4_0 (s.cast nbuf4_0) | 1 => fun s => hstage4_1 (s.cast nbuf4_1) | 2 => fun s => hstage4_2 (s.cast nbuf4_2) | 3 => fun s => hstage4_3 (s.cast nbuf4_3) | 4 => fun s => hstage4_4 (s.cast nbuf4_4) | 5 => fun s => hstage4_5 (s.cast nbuf4_5) | 6 => fun s => hstage4_6 (s.cast nbuf4_6) | ⟨_ + 7, h⟩ => absurd h (Nat.not_lt.2 (Nat.le_add_left _ _))

theorem launch4 : Pipeline.LaunchFacts (nD := nD) (τ := τ) cfgs 4 := ⟨cellOf_inj, winFacts4, block_pos4, arr_whole4, stage_whole4⟩

theorem N_4 : grid4.N = 1 := by decide

def t4_0 : Fin grid4.N := ⟨0, by rw [N_4]; decide⟩

theorem bigSep_W4 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

abbrev hostOps0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.reshape main_v10 main_v11 rfl shapeCasts_S50000_S50000x1,
    StableHlo.reshape main_arg2 main_v12 rfl shapeCasts_S50000_S50000x1 ]

theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.reshape_bufs_sub .., StableHlo.reshape_bufs_sub ..⟩

abbrev hostOps1 : List (HloOp τ sig (Elt F)) :=
  [ StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v20 main_v21 ((extf .f32 · bitsLt_bf16_f32) : (⟨S800000x128, .bf16⟩ : BufTy).Contents (Elt F) → (⟨S800000x128, .f32⟩ : BufTy).Contents (Elt F)),
    StableHlo.nullary main_cst_3 (constant S_ .f32 0x00000000#32),
    StableHlo.unary main_cst_3 main_v22 (broadcastInDim S50000x128 ![] bcast_S_S50000x128 : (⟨S_, .f32⟩ : BufTy).Contents (Elt F) → (⟨S50000x128, .f32⟩ : BufTy).Contents (Elt F)),
    StableHlo.unary main_v3 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps1_sub : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps2 : List (HloOp τ sig (Elt F)) :=
  [ StableHlo.nullary main_c_4 (constantI S_ 32 0#32),
    StableHlo.unary main_c_4 main_v26 (broadcastInDim S800000 ![] bcast_S_S800000 : (⟨S_, .i32⟩ : BufTy).Contents (Elt F) → (⟨S800000, .i32⟩ : BufTy).Contents (Elt F)),
    StableHlo.binary main_v1 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v28 (broadcastInDim S800000 ![] bcast_S_S800000 : (⟨S_, .i32⟩ : BufTy).Contents (Elt F) → (⟨S800000, .i32⟩ : BufTy).Contents (Elt F)),
    StableHlo.binary main_v1 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v25 main_v31 main_v32 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v32 main_v33 ((extf .f32 · bitsLt_bf16_f32) : (⟨S800000x128, .bf16⟩ : BufTy).Contents (Elt F) → (⟨S800000x128, .f32⟩ : BufTy).Contents (Elt F)),
    StableHlo.nullary main_cst_6 (constant S_ .f32 0x00000000#32),
    StableHlo.unary main_cst_6 main_v34 (broadcastInDim S50000x128 ![] bcast_S_S50000x128 : (⟨S_, .f32⟩ : BufTy).Contents (Elt F) → (⟨S50000x128, .f32⟩ : BufTy).Contents (Elt F)),
    StableHlo.unary main_v3 main_v35 (broadcastInDim S800000x1 ![0] bcast_S800000_S800000x1_0 : (⟨S800000, .i32⟩ : BufTy).Contents (Elt F) → (⟨S800000x1, .i32⟩ : BufTy).Contents (Elt F)),
    StableHlo.ternary main_v34 main_v35 main_v33 main_v36 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps2_sub : (hostOps2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps3 : List (HloOp τ sig (Elt F)) :=
  [ StableHlo.nullary main_c_7 (constantI S_ 32 0#32),
    StableHlo.unary main_c_7 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v44 main_v45 ((extf .f32 · bitsLt_bf16_f32) : (⟨S800000x128, .bf16⟩ : BufTy).Contents (Elt F) → (⟨S800000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps3_sub : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev main_part0_ops3 : List (HloOp τ sig (Elt F)) :=
  [ StableHlo.nullary main_c_7 (constantI S_ 32 0#32),
    StableHlo.unary main_c_7 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v44 main_v45 ((extf .f32 · bitsLt_bf16_f32) : (⟨S800000x128, .bf16⟩ : BufTy).Contents (Elt F) → (⟨S800000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)) ]

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ]
  (StableHlo.seq main_part0_ops3) : Prog (TpuEff nD τ sig (Elt F) (Pipeline.Sig Λ₀ (Fin 5) fun p => (pcfgs (F := F) p).Adm) .tc) PUnit) := by
  chain_rfl

abbrev main_part1_ops0 : List (HloOp τ sig (Elt F)) :=
  [ StableHlo.ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem main_part1_chain (c : Dev nD) : main_part1 (F := F) c = (Pipeline.chain
  [ StableHlo.seq main_part1_ops0,
    Prog.lift (.customCall (Pipeline.entry 3) ()),
    Prog.lift (.customCall (Pipeline.entry 4) ()) ] : Prog (TpuEff nD τ sig (Elt F) (Pipeline.Sig Λ₀ (Fin 5) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    Prog.lift (.customCall (Pipeline.entry 4) ()) ] : Prog (TpuEff nD τ sig (Elt F) (Pipeline.Sig Λ₀ (Fin 5) fun p => (pcfgs (F := F) p).Adm) .tc) PUnit) := by
  show (main_part0 (F := F) c >>= fun _ => main_part1 (F := F) c) = _
  rewrite [main_part1_chain, main_part0_chain, Pipeline.chainK_bind_chain]
  chain_rfl

end Cert.Kernel.Gen

end
-- ==== Proof.K.RegionsP.lean ====
import proofs.«430777_j3556232921556_3_alg».proof.Proof.K.LaunchP
import Idealize.ShloMosaic.Lib.Pipeline.Frame
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v13 (outs 2 main_v13 c)

abbrev V3 (c : Dev nD) : Valuation τ sig (Elt F) := StableHlo.after hostOps1 (V2 m outs c)

abbrev V4 (c : Dev nD) : Valuation τ sig (Elt F) := Function.update (V3 m outs c) main_v25 (outs 4 main_v25 c)

abbrev V5 (c : Dev nD) : Valuation τ sig (Elt F) := StableHlo.after hostOps2 (V4 m outs c)

abbrev V6 (c : Dev nD) : Valuation τ sig (Elt F) := Function.update (V5 m outs c) main_v37 (outs 6 main_v37 c)

abbrev V7 (c : Dev nD) : Valuation τ sig (Elt F) := StableHlo.after hostOps3 (V6 m outs c)

abbrev V8 (c : Dev nD) : Valuation τ sig (Elt F) := Function.update (Function.update (V7 m outs c) main_v49_0 (outs 8 main_v49_0 c)) main_v49_1 (outs 8 main_v49_1 c)

abbrev V9 (c : Dev nD) : Valuation τ sig (Elt F) := Function.update (V8 m outs c) main_v50 (outs 9 main_v50 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_cst, main_v4, main_cst_0, main_v5, main_v6, main_v7, main_cst_1, main_v8, main_v9, main_v10, main_v11, main_v12]
/-- Every operation of the first host stretch writes one of the listed buffers; the same of the other three stretches. -/
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_c, main_v14, main_v15, main_c_2, main_v16, main_v17, main_v18, main_v19, main_v20, main_v21, main_cst_3, main_v22, main_v23, main_v24]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_c_4, main_v26, main_v27, main_c_5, main_v28, main_v29, main_v30, main_v31, main_v32, main_v33, main_cst_6, main_v34, main_v35, main_v36]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_c_7, main_v38, main_v39, main_c_8, main_v40, main_v41, main_v42, main_v43, main_v44, main_v45, main_cst_9, main_v46, main_v47, main_v48]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v13] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v13)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v25] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v25)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v37] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v37)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v49_0, main_v49_1] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v49_0), Function.update_of_ne (StableHlo.devRef_ne_of_ne (List.ne_of_not_mem_cons (List.not_mem_of_not_mem_cons h)) : (Proc.devRef .tc r : DevRef τ sig) ≠ Proc.devRef .tc main_v49_1)]
theorem V9_of (c : Dev nD) (r : Ref sig .tc) (h : r ∉ ([main_v50] : List (Ref sig .tc))) : V9 m outs c r = V8 m outs c r := by
  simp only [V9, Function.update_of_ne (StableHlo.devRef_ne_of_ne (List.ne_of_not_mem_cons h) : (Proc.devRef .tc r : DevRef τ sig) ≠ Proc.devRef .tc main_v50)]

/-- A buffer that no host stretch and no region writes holds at the end what the launch memory held. -/
theorem V9_keep (c : Dev nD) (r : Ref sig .tc) (h1 : r ∉ hostOps0_W) (h2 : r ∉ ([main_v13] : List (Ref sig .tc))) (h3 : r ∉ hostOps1_W)
    (h4 : r ∉ ([main_v25] : List (Ref sig .tc))) (h5 : r ∉ hostOps2_W) (h6 : r ∉ ([main_v37] : List (Ref sig .tc))) (h7 : r ∉ hostOps3_W)
    (h8 : r ∉ ([main_v49_0, main_v49_1] : List (Ref sig .tc))) (h9 : r ∉ ([main_v50] : List (Ref sig .tc))) :
    V9 m outs c r = m ((c : Thread nD τ).loc r) :=
  (V9_of m outs c r h9).trans <| (V8_of m outs c r h8).trans <| (V7_of m outs c r h7).trans <| (V6_of m outs c r h6).trans <|
    (V5_of m outs c r h5).trans <| (V4_of m outs c r h4).trans <| (V3_of m outs c r h3).trans <| (V2_of m outs c r h2).trans <|
    (V1_of m c r h1).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .region R4]

end

end Cert.Kernel.Gen

end
-- ==== Proof.K.Reg0.lean ====
import proofs.«430777_j3556232921556_3_alg».proof.Proof.K.LaunchP
import proofs.«430777_j3556232921556_3_alg».proof.Proof.Gen.Kernel.Skeleton
import proofs.«430777_j3556232921556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_d : Rect S5000x1 := Rect.unit (s := S5000x1) ![0, 0] S5000x1.size inb_S5000x1_S5000x1_0_0
abbrev r0_w : Rect S128x128 := Rect.unit (s := S128x128) ![0, 0] S128x128.size inb_S128x128_S128x128_0_0

def out0_3 (x0 : Vec F S5000x128 .f32) (x1 : Vec F S5000x1 .f32) (x2 : Vec F S128x128 .f32) : Vec F S5000x128 .bf16 :=
  View.canon [⟨r0_x, k0_pay1 (View.ld x0 r0_x) (View.ld x2 r0_w) (View.ld x1 r0_d)⟩]

set_option maxHeartbeats 4000000 in

theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .bf16) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_linear_kernel i arg1 harg1 arg2 harg2 arg3 harg3 arg4 harg4) K := by
  simp only [cc0__scaled_linear_kernel_eq_skeleton]; unfold cc0__scaled_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; swap; isplitl [H1]; swap; isplitl [H2]; swap
  iexists _; isplitr
  swap; · iexact H3
  ipureintro
  exact View.read_writes_eq_canon _ _ _ (View.cover_of_tiled _ S5000x128.size (by rfl))
  all_goals
    iexists _; isplitr; swap
    · iassumption
    ipureintro; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0_of (c : Dev nD) (t : Fin cfg0.N) : ∀ w : Fin cfg0.W, w.val < 3 → ∀ d, (dat0 V c).before w t d = (dat0 V c).after w t
  | ⟨0, _⟩, _, d | ⟨1, _⟩, _, d | ⟨2, _⟩, _, d =>
    (dat0 V c).before_in_eq_fetched _ rfl (fun _ => rfl) (fun _ _ _ => rfl) (fun _ => rfl) t d
  | ⟨_ + 3, _⟩, h, _ => absurd h (Nat.not_lt.2 (Nat.le_add_left _ _))

theorem body_obligation0 (c : Dev nD) : BodyObligation (dat0 (F := F) V c) (defs₀ (F := F)) Variants.none () Set.univ := fun t => by
  show _ ⊢ wp frame _ _ (bodyAt0 t) fun _ => iprop((dat0 V c).Φ t.castSucc ∗ (dat0 V c).owesAt () t.castSucc
      ∗ bigSep Finset.univ fun w => owns _ _ _ ((dat0 V c).after w t))
  rw [bigSep_W0, bigSep_W0]
  simp (disch := decide) only [before0_of V c t, after0_3]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H0, H1, H2, H3⟩
  iframe HΦ Ho H0 H1 H2
  iexact H3

end Cert.Kernel.Gen

end
-- ==== Proof.K.Reg1.lean ====
import proofs.«430777_j3556232921556_3_alg».proof.Proof.K.LaunchP
import proofs.«430777_j3556232921556_3_alg».proof.Proof.Gen.Kernel.Skeleton
import proofs.«430777_j3556232921556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S128 := Rect.unit (s := S128) ![0] S128.size inb_S128_S128_0
abbrev r1_w : Rect S128x128 := Rect.unit (s := S128x128) ![0, 0] S128x128.size inb_S128x128_S128x128_0_0

def out1_5 (x0 : Vec F S5000x128 .f32) (x1 : Vec F S5000x128 .bf16) (x2 : Vec F S5000x1 .f32) (x3 : Vec F S128 .f32)
    (x4 : Vec F S128x128 .f32) : Vec F S5000x128 .bf16 :=
  View.canon [⟨r1_x, k1_pay1 (View.ld x2 r1_d) (View.ld x1 r1_x) (View.ld x0 r1_x) (View.ld x3 r1_b) (View.ld x4 r1_w)⟩]

set_option maxHeartbeats 4000000 in

theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__finalize_relu_linear_kernel i arg1 harg1 arg2 harg2 arg3 harg3 arg4 harg4 arg5 harg5 arg6 harg6) K := by
  simp only [cc1__finalize_relu_linear_kernel_eq_skeleton]; unfold cc1__finalize_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]; swap
  iexists _; isplitr
  swap; · iexact H5
  ipureintro
  exact View.read_writes_eq_canon _ _ _ (View.cover_of_tiled _ S5000x128.size (by rfl))
  all_goals
    iexists _; isplitr; swap
    · iassumption
    ipureintro; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem before1_of (c : Dev nD) (t : Fin cfg1.N) : ∀ w : Fin cfg1.W, w.val < 5 → ∀ d, (dat1 V c).before w t d = (dat1 V c).after w t
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨_ + 5, _⟩, h, _ => absurd h (Nat.not_lt.2 (Nat.le_add_left _ _))

theorem body_obligation1 (c : Dev nD) : BodyObligation (dat1 (F := F) V c) (defs₀ (F := F)) Variants.none () Set.univ := fun t => by
  show _ ⊢ wp frame _ _ (bodyAt1 t) fun _ => iprop((dat1 V c).Φ t.castSucc ∗ (dat1 V c).owesAt () t.castSucc
      ∗ bigSep Finset.univ fun w => owns _ _ _ ((dat1 V c).after w t))
  rw [bigSep_W1, bigSep_W1]
  simp (disch := decide) only [before1_of V c t, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _)
  iframe H0 H1 H2 H3 H4
  isplitl [H5]; · iexists _; iexact H5
  iintro ⟨H0, H1, H2, H3, H4, H5⟩
  iframe HΦ Ho H0 H1 H2 H3 H4
  iexact H5

end Cert.Kernel.Gen

end
-- ==== Proof.K.Reg2.lean ====
import proofs.«430777_j3556232921556_3_alg».proof.Proof.K.LaunchP
import proofs.«430777_j3556232921556_3_alg».proof.Proof.Gen.Kernel.Skeleton
import proofs.«430777_j3556232921556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_b : Rect S128 := Rect.unit (s := S128) ![0] S128.size inb_S128_S128_0
abbrev r2_w : Rect S128x128 := Rect.unit (s := S128x128) ![0, 0] S128x128.size inb_S128x128_S128x128_0_0

def out2_5 (x0 : Vec F S5000x128 .f32) (x1 : Vec F S5000x128 .bf16) (x2 : Vec F S5000x1 .f32) (x3 : Vec F S128 .f32)
    (x4 : Vec F S128x128 .f32) : Vec F S5000x128 .bf16 :=
  View.canon [⟨r2_x, k2_pay1 (View.ld x2 r2_d) (View.ld x1 r2_x) (View.ld x0 r2_x) (View.ld x3 r2_b) (View.ld x4 r2_w)⟩]

set_option maxHeartbeats 4000000 in

theorem sound_kernel2 (c : Dev nD) (E : Set ℕ) (i : grid2.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__finalize_relu_linear_kernel i arg1 harg1 arg2 harg2 arg3 harg3 arg4 harg4 arg5 harg5 arg6 harg6) K := by
  simp only [cc2__finalize_relu_linear_kernel_eq_skeleton]; unfold cc2__finalize_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]; swap
  iexists _; isplitr
  swap; · iexact H5
  ipureintro
  exact View.read_writes_eq_canon _ _ _ (View.cover_of_tiled _ S5000x128.size (by rfl))
  all_goals
    iexists _; isplitr; swap
    · iassumption
    ipureintro; rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

theorem before2_of (c : Dev nD) (t : Fin cfg2.N) : ∀ w : Fin cfg2.W, w.val < 5 → ∀ d, (dat2 V c).before w t d = (dat2 V c).after w t
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨_ + 5, _⟩, h, _ => absurd h (Nat.not_lt.2 (Nat.le_add_left _ _))

theorem body_obligation2 (c : Dev nD) : BodyObligation (dat2 (F := F) V c) (defs₀ (F := F)) Variants.none () Set.univ := fun t => by
  show _ ⊢ wp frame _ _ (bodyAt2 t) fun _ => iprop((dat2 V c).Φ t.castSucc ∗ (dat2 V c).owesAt () t.castSucc
      ∗ bigSep Finset.univ fun w => owns _ _ _ ((dat2 V c).after w t))
  rw [bigSep_W2, bigSep_W2]
  simp (disch := decide) only [before2_of V c t, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _ _ _ _ _)
  iframe H0 H1 H2 H3 H4
  isplitl [H5]; · iexists _; iexact H5
  iintro ⟨H0, H1, H2, H3, H4, H5⟩
  iframe HΦ Ho H0 H1 H2 H3 H4
  iexact H5

end Cert.Kernel.Gen

end
-- ==== Proof.K.Reg3.lean ====
import proofs.«430777_j3556232921556_3_alg».proof.Proof.K.LaunchP
import proofs.«430777_j3556232921556_3_alg».proof.Proof.Gen.Kernel.Skeleton
import proofs.«430777_j3556232921556_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S128 := Rect.unit (s := S128) ![0] S128.size inb_S128_S128_0
abbrev r3_p : Rect S128x256 := Rect.unit (s := S128x256) ![0, 0] S128x256.size inb_S128x256_S128x256_0_0
abbrev r3_c : Rect S1x256 := Rect.unit (s := S1x256) ![0, 0] S1x256.size inb_S1x256_S1x256_0_0

abbrev cond3_0 (i : grid3.Coords) : Prop :=
  (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1

theorem hcond3_1 : ∀ t : Fin cfg3.N, cond3_1 (grid3.coords t) ↔ t.val % 10 = 9 :=
  (by decide +kernel : ∀ t : Fin grid3.N, cond3_1 (grid3.coords t) ↔ t.val % 10 = 9)

theorem idleAt3 : ∀ t : Fin cfg3.N, ¬cond3_1 (grid3.coords t) → (cfg3.idle 5 (grid3.coords t) = true ∧ (cfg3.win 5).flush t = false)
    ∧ cfg3.idle 6 (grid3.coords t) = true ∧ (cfg3.win 6).flush t = false := by decide +kernel
theorem liveAt3 : ∀ t : Fin cfg3.N, cond3_1 (grid3.coords t) → cfg3.idle 5 (grid3.coords t) = false ∧ cfg3.idle 6 (grid3.coords t) = false := by
  decide +kernel

def resP3 : Vec F S128x256 .f32 := View.canon [⟨r3_p, k3_pay2 (F := F)⟩]

def resC3 : Vec F S1x256 .f32 := View.canon [⟨r3_c, k3_pay3 (F := F)⟩]

def stepP3 (x0 : Vec F S5000x128 .f32) (x1 : Vec F S5000x128 .bf16) (x2 : Vec F S5000x1 .f32) (x3 : Vec F S128 .f32)
    (x4 : Vec F S5000x1 .i32) (s0 : Vec F S128x256 .f32) : Vec F S128x256 .f32 :=
  View.canon [⟨r3_p, k3_pay5 (View.ld x2 r3_d) (View.ld x1 r3_x) (View.ld x0 r3_x) (View.ld x3 r3_b) (View.ld x4 r3_d) (View.ld s0 r3_p)⟩]

def stepC3 (x4 : Vec F S5000x1 .i32) (s1 : Vec F S1x256 .f32) : Vec F S1x256 .f32 :=
  View.canon [⟨r3_c, k3_pay1 (View.ld s1 r3_c) (k3_pay6 (View.ld x4 r3_d))⟩]

def accP3 (c : Dev nD) : ℕ → Vec F S128x256 .f32
  | 0 => stepP3 (iblk3 V c 0 t3_0) (iblk3 V c 1 t3_0) (iblk3 V c 2 t3_0) (iblk3 V c 3 t3_0) (iblk3 V c 4 t3_0) resP3
  | n + 1 =>
    if h : n + 1 < cfg3.N then
      stepP3 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (accP3 c n)
    else accP3 c n

def accC3 (c : Dev nD) : ℕ → Vec F S1x256 .f32
  | 0 => stepC3 (iblk3 V c 4 t3_0) resC3
  | n + 1 => if h : n + 1 < cfg3.N then stepC3 (iblk3 V c 4 ⟨n + 1, h⟩) (accC3 c n) else accC3 c n

theorem accP3_zero (c : Dev nD) (t : Fin cfg3.N) (ht : t.val = 0) :
    accP3 V c t.val = stepP3 (iblk3 V c 0 t) (iblk3 V c 1 t) (iblk3 V c 2 t) (iblk3 V c 3 t) (iblk3 V c 4 t) resP3 := by
  obtain ⟨n, hn⟩ := t
  obtain rfl : n = 0 := ht
  rfl
theorem accP3_pos (c : Dev nD) (t : Fin cfg3.N) (ht : t.val ≠ 0) :
    accP3 V c t.val = stepP3 (iblk3 V c 0 t) (iblk3 V c 1 t) (iblk3 V c 2 t) (iblk3 V c 3 t) (iblk3 V c 4 t) (accP3 V c (t.val - 1)) := by
  obtain ⟨n, hn⟩ := t
  cases n with
  | zero => exact absurd rfl ht
  | succ n => exact (dif_pos hn).trans rfl
theorem accC3_zero (c : Dev nD) (t : Fin cfg3.N) (ht : t.val = 0) :
    accC3 V c t.val = stepC3 (iblk3 V c 4 t) resC3 := by
  obtain ⟨n, hn⟩ := t
  obtain rfl : n = 0 := ht
  rfl
theorem accC3_pos (c : Dev nD) (t : Fin cfg3.N) (ht : t.val ≠ 0) :
    accC3 V c t.val = stepC3 (iblk3 V c 4 t) (accC3 V c (t.val - 1)) := by
  obtain ⟨n, hn⟩ := t
  cases n with
  | zero => exact absurd rfl ht
  | succ n => exact (dif_pos hn).trans rfl

abbrev scM3_0 : Memref sig .tc .vmem S128x256 .f32 := Memref.whole cc3_scratch0
abbrev scM3_1 : Memref sig .tc .vmem S1x256 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

def PhiS3 (c : Dev nD) (p : Vec F S128x256 .f32) (q : Vec F S1x256 .f32) : sProp 𝕄 :=
  iprop(iprop(iprop(owns (c : Thread nD τ) scM3_0 fullShare p ∗ owns (c : Thread nD τ) scM3_1 fullShare q) ∗ rest3 (F := F) c) ∗ (∃ r, prngReg c r))

def Phi3 (c : Dev nD) : ℕ → sProp 𝕄
  | 0 => Pipeline.ΦA spec3 c
  | n + 1 => PhiS3 c (accP3 V c n) (accC3 V c n)

theorem Phi3_pos (c : Dev nD) (n : ℕ) (hn : n ≠ 0) : Phi3 V c n = PhiS3 c (accP3 V c (n - 1)) (accC3 V c (n - 1)) := by
  cases n with
  | zero => exact absurd rfl hn
  | succ n => rfl

theorem zero3_2 : (![0, 0] : Fin 2 → ℕ) = fun _ => 0 := by funext a; fin_cases a <;> rfl

theorem cover3_p (p0 : Vec F S128x256 .f32) (L : List (View.Piece (Elt F) S128x256 .f32)) (y : S128x256.Idx) :
    ∃ pc ∈ ((⟨r3_p, p0⟩ : View.Piece (Elt F) S128x256 .f32) :: L), y ∈ pc.1.set :=
  ⟨_, List.mem_cons.mpr (Or.inl rfl), View.mem_set_unit_zero zero3_2 inb_S128x256_S128x256_0_0 y⟩

theorem canon3_p (p0 : Vec F S128x256 .f32) (L : List (View.Piece (Elt F) S128x256 .f32)) :
    View.canon ((⟨r3_p, p0⟩ : View.Piece (Elt F) S128x256 .f32) :: L) = p0 :=
  View.canon_cons_unit_zero zero3_2 inb_S128x256_S128x256_0_0 p0 L

theorem cover3_c (p0 : Vec F S1x256 .f32) (L : List (View.Piece (Elt F) S1x256 .f32)) (y : S1x256.Idx) :
    ∃ pc ∈ ((⟨r3_c, p0⟩ : View.Piece (Elt F) S1x256 .f32) :: L), y ∈ pc.1.set :=
  ⟨_, List.mem_cons.mpr (Or.inl rfl), View.mem_set_unit_zero zero3_2 inb_S1x256_S1x256_0_0 y⟩
theorem canon3_c (p0 : Vec F S1x256 .f32) (L : List (View.Piece (Elt F) S1x256 .f32)) :
    View.canon ((⟨r3_c, p0⟩ : View.Piece (Elt F) S1x256 .f32) :: L) = p0 :=
  View.canon_cons_unit_zero zero3_2 inb_S1x256_S1x256_0_0 p0 L

set_option maxHeartbeats 4000000 in

theorem sound_kernel3_A (c : Dev nD) (E : Set ℕ) (i : grid3.Coords) (hc0 : cond3_0 i) (hc1 : ¬cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (y5 : Vec F S128x256 .f32) (y6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare y5 ∗ owns (c : Thread nD τ) arg7 fullShare y6
            ∗ owns (c : Thread nD τ) arg8 fullShare (stepP3 x0 x1 x2 x3 x4 resP3)
            ∗ owns (c : Thread nD τ) arg9 fullShare (stepC3 x4 resC3)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap
  isplitl [H7]
  · iexists _; isplitr
    swap; · iexact H7
    ipureintro

    have hv28 : sound_kernel3_A.sl.v28 (F := F) c arg8 = View.ld (resP3 (F := F)) r3_p :=
      View.readCov_eq_canon_ld _ _ _ (cover3_p _ [])
    refine (View.read_writes_eq_canon _ _ _ (cover3_p _ _)).trans ?_
    refine (canon3_p _ _).trans ?_
    refine Eq.trans ?_ (canon3_p _ []).symm
    exact congrArg (k3_pay5 _ _ _ _ _) hv28
  iexists _; isplitr
  swap; · iexact H8
  ipureintro
  have hv34 : sound_kernel3_A.sl.v34 (F := F) c arg9 = View.ld (resC3 (F := F)) r3_c :=
    View.readCov_eq_canon_ld _ _ _ (cover3_c _ [])
  refine (View.read_writes_eq_canon _ _ _ (cover3_c _ _)).trans ?_
  refine (canon3_c _ _).trans ?_
  refine Eq.trans ?_ (canon3_c _ []).symm
  exact congrArg (fun s => k3_pay1 s _) hv34
  all_goals
    iexists _; isplitr; swap
    · iassumption
    ipureintro; rfl

set_option maxHeartbeats 4000000 in

theorem sound_kernel3_B (c : Dev nD) (E : Set ℕ) (i : grid3.Coords) (hc0 : ¬cond3_0 i) (hc1 : ¬cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (y5 : Vec F S128x256 .f32) (y6 : Vec F S1x256 .f32) (s0 : Vec F S128x256 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y5 ∗ owns (c : Thread nD τ) arg7 fullShare y6
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare y5 ∗ owns (c : Thread nD τ) arg7 fullShare y6
            ∗ owns (c : Thread nD τ) arg8 fullShare (stepP3 x0 x1 x2 x3 x4 s0)
            ∗ owns (c : Thread nD τ) arg9 fullShare (stepC3 x4 s1)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap
  isplitl [H7]
  · iexists _; isplitr
    swap; · iexact H7
    ipureintro
    exact View.read_writes_eq_canon _ _ _ (cover3_p _ _)
  iexists _; isplitr
  swap; · iexact H8
  ipureintro
  exact View.read_writes_eq_canon _ _ _ (cover3_c _ _)
  all_goals
    iexists _; isplitr; swap
    · iassumption
    ipureintro; rfl

set_option maxHeartbeats 4000000 in

theorem sound_kernel3_C (c : Dev nD) (E : Set ℕ) (i : grid3.Coords) (hc0 : ¬cond3_0 i) (hc1 : cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (s0 : Vec F S128x256 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stepP3 x0 x1 x2 x3 x4 s0) ∗ owns (c : Thread nD τ) arg7 fullShare (stepC3 x4 s1)
            ∗ owns (c : Thread nD τ) arg8 fullShare (stepP3 x0 x1 x2 x3 x4 s0)
            ∗ owns (c : Thread nD τ) arg9 fullShare (stepC3 x4 s1)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hc0 | exact hc1)
  sl_step
  iapply Hk
  isplitl [H0]; swap; isplitl [H1]; swap; isplitl [H2]; swap; isplitl [H3]; swap; isplitl [H4]; swap
  isplitl [H5]
  · iexists _; isplitr
    swap; · iexact H5
    ipureintro

    exact (View.read_writes_eq_canon _ _ _ (cover3_p _ _)).trans ((canon3_p _ _).trans
      ((View.readCov_unit_zero _ zero3_2 _ _).trans (canon3_p _ []).symm))
  isplitl [H6]
  · iexists _; isplitr
    swap; · iexact H6
    ipureintro
    exact (View.read_writes_eq_canon _ _ _ (cover3_c _ _)).trans ((canon3_c _ _).trans
      ((View.readCov_unit_zero _ zero3_2 _ _).trans (canon3_c _ []).symm))
  isplitl [H7]
  · iexists _; isplitr
    swap; · iexact H7
    ipureintro
    exact View.read_writes_eq_canon _ _ _ (cover3_p _ _)
  iexists _; isplitr
  swap; · iexact H8
  ipureintro
  exact View.read_writes_eq_canon _ _ _ (cover3_c _ _)
  all_goals
    iexists _; isplitr; swap
    · iassumption
    ipureintro; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => accP3 V c t.val
    | ⟨6, _⟩ => accC3 V c t.val
  Φ t := Phi3 V c t.val
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = accP3 V c t.val := by dsimp only [dat3]
theorem after3_6 (c : Dev nD) (t : Fin cfg3.N) : (dat3 V c).after 6 t = accC3 V c t.val := by dsimp only [dat3]

theorem in3_of (c : Dev nD) (t : Fin cfg3.N) : ∀ w : Fin cfg3.W, w.val < 5 → (∀ d, (dat3 V c).before w t d = (dat3 V c).after w t) ∧
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ =>
    ⟨(dat3 V c).before_in_eq_fetched _ rfl (fun _ => rfl) (fun _ _ _ => rfl) (fun _ => rfl) t, rfl⟩
  | ⟨_ + 5, _⟩, h => absurd h (Nat.not_lt.2 (Nat.le_add_left _ _))

theorem Phi3_zero (c : Dev nD) : (dat3 V c).Φ 0 = Pipeline.ΦA spec3 c := rfl

theorem Phi3_last_out (c : Dev nD) : (dat3 V c).Φ (Fin.last cfg3.N) ⊢ Pipeline.ΦA spec3 c := by
  rw [show (dat3 V c).Φ (Fin.last cfg3.N) = Phi3 V c (Fin.last cfg3.N).val from rfl,
    Phi3_pos V c _ (by rw [Fin.val_last]; have : cfg3.N = 10 := N_3; omega), PhiA3_eq, PhiS3]
  iintro ⟨⟨⟨HS0, HS1⟩, HR⟩, Hg⟩
  iframe HR Hg
  isplitl [HS0] <;> iexists _ <;> iassumption

set_option maxHeartbeats 4000000 in
theorem body_obligation3 (c : Dev nD) : BodyObligation (dat3 (F := F) V c) (defs₀ (F := F)) Variants.none () Set.univ := fun t => by
  show iprop(Phi3 V c t.val ∗ _) ⊢ wp frame _ _ (bodyAt3 t) fun _ => iprop(PhiS3 c (accP3 V c t.val) (accC3 V c t.val)
      ∗ (dat3 V c).owesAt () t.castSucc ∗ bigSep Finset.univ fun w => (dat3 V c).leavesExact w t)
  rw [bigSep_W3, bigSep_W3]
  simp (disch := decide) only [in3_of V c t]
  have hN : t.val < 10 := lt_of_lt_of_eq t.isLt (show cfg3.N = 10 from N_3)
  have c0 := hcond3_0 t
  have c1 := hcond3_1 t
  rw [Nat.mod_eq_of_lt hN] at c0 c1
  by_cases h1 : t.val = 9
  · have hz : t.val ≠ 0 := by omega
    obtain ⟨l5, l6⟩ := liveAt3 t (c1.mpr h1)
    rw [show (dat3 V c).leavesExact 5 t = owns (c : Thread nD τ) (st3_5 t) fullShare ((dat3 V c).after 5 t) from by
        unfold Dat.leavesExact; rw [l5], after3_5,
      show (dat3 V c).leavesExact 6 t = owns (c : Thread nD τ) (st3_6 t) fullShare ((dat3 V c).after 6 t) from by
        unfold Dat.leavesExact; rw [l6], after3_6,
      accP3_pos V c t hz, accC3_pos V c t hz, Phi3_pos V c t.val hz, PhiS3, PhiS3]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_C c Set.univ (grid3.coords t) (fun h => hz (c0.mp h)) (c1.mpr h1) _ _ _ _ _ _ _ _ _ _ _ _ _ _ _ _ _ _ _ _ _ _ _ _ _ _)
    iframe H0 H1 H2 H3 H4 HS0 HS1
    isplitl [H5]; · iexists _; iexact H5
    isplitl [H6]; · iexists _; iexact H6
    iintro ⟨H0, H1, H2, H3, H4, H5, H6, HS0, HS1⟩
    iframe HR Hg Ho H0 H1 H2 H3 H4
    isplitl [HS0 HS1]
    · isplitl [HS0]; · iexact HS0
      iexact HS1
    isplitl [H5]; · iexact H5
    iexact H6
  · have hc1 : ¬cond3_1 (grid3.coords t) := fun h => h1 (c1.mp h)
    obtain ⟨⟨i5, f5⟩, i6, f6⟩ := idleAt3 t hc1
    rw [Dat.leavesExact_idle _ 5 t i5 f5, Dat.leavesExact_idle _ 6 t i6 f6]
    by_cases h0 : t.val = 0
    · rw [accP3_zero V c t h0, accC3_zero V c t h0, show Phi3 V c t.val = Pipeline.ΦA spec3 c from by rw [h0]; rfl, PhiA3_eq, PhiS3]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) (c0.mpr h0) hc1 _ _ _ _ _ _ _ _ _ _ _ _ _ _ _ _ _ _ _ _ _ _ _ _ _ _)
      iframe H0 H1 H2 H3 H4 H5 H6 HS0 HS1
      iintro ⟨H0, H1, H2, H3, H4, H5, H6, HS0, HS1⟩
      iframe HR Hg Ho H0 H1 H2 H3 H4
      isplitl [HS0 HS1]
      · isplitl [HS0]; · iexact HS0
        iexact HS1
      isplitl [H5] <;> iexists _ <;> iassumption
    · rw [accP3_pos V c t h0, accC3_pos V c t h0, Phi3_pos V c t.val h0, PhiS3, PhiS3]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) (fun h => h0 (c0.mp h)) hc1 _ _ _ _ _ _ _ _ _ _ _ _ _ _ _ _ _ _ _ _ _ _ _ _ _ _ _ _)
      iframe H0 H1 H2 H3 H4 H5 H6 HS0 HS1
      iintro ⟨H0, H1, H2, H3, H4, H5, H6, HS0, HS1⟩
      iframe HR Hg Ho H0 H1 H2 H3 H4
      isplitl [HS0 HS1]
      · isplitl [HS0]; · iexact HS0
        iexact HS1
      isplitl [H5] <;> iexists _ <;> iassumption

end Cert.Kernel.Gen

end
-- ==== Proof.K.Reg4.lean ====
import proofs.«430777_j3556232921556_3_alg».proof.Proof.K.LaunchP
import proofs.«430777_j3556232921556_3_alg».proof.Proof.Gen.Kernel.Skeleton
import proofs.«430777_j3556232921556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_p : Rect S128x256 := Rect.unit (s := S128x256) ![0, 0] S128x256.size inb_S128x256_S128x256_0_0
abbrev r4_c : Rect S1x256 := Rect.unit (s := S1x256) ![0, 0] S1x256.size inb_S1x256_S1x256_0_0
abbrev r4_b1 : Rect S256 := Rect.unit (s := S256) ![0] S256.size inb_S256_S256_0
abbrev r4_o : Rect S256x768 := Rect.unit (s := S256x768) ![0, 0] S256x768.size inb_S256x768_S256x768_0_0
abbrev r4_b2 : Rect S768 := Rect.unit (s := S768) ![0] S768.size inb_S768_S768_0

def out4_6 (x0 : Vec F S128x256 .f32) (x1 : Vec F S1x256 .f32) (x2 : Vec F S128x256 .f32) (x3 : Vec F S256 .f32)
    (x4 : Vec F S256x768 .f32) (x5 : Vec F S768 .f32) : Vec F S256x768 .f32 :=
  View.canon [⟨r4_o, k4_pay1 (View.ld x1 r4_c) (View.ld x0 r4_p) (View.ld x2 r4_p) (View.ld x3 r4_b1) (View.ld x4 r4_o) (View.ld x5 r4_b2)⟩]

set_option maxHeartbeats 4000000 in

theorem sound_kernel4 (c : Dev nD) (E : Set ℕ) (i : grid4.Coords)
    (arg1 : Memref sig .tc .vmem S128x256 .f32) (harg1 : arg1.IsWhole) (arg2 : Memref sig .tc .vmem S1x256 .f32) (harg2 : arg2.IsWhole)
    (arg3 : Memref sig .tc .vmem S128x256 .f32) (harg3 : arg3.IsWhole) (arg4 : Memref sig .tc .vmem S256 .f32) (harg4 : arg4.IsWhole)
    (arg5 : Memref sig .tc .vmem S256x768 .f32) (harg5 : arg5.IsWhole) (arg6 : Memref sig .tc .vmem S768 .f32) (harg6 : arg6.IsWhole)
    (arg7 : Memref sig .tc .vmem S256x768 .f32) (harg7 : arg7.IsWhole)
    (x0 : Vec F S128x256 .f32) (x1 : Vec F S1x256 .f32) (x2 : Vec F S128x256 .f32) (x3 : Vec F S256 .f32) (x4 : Vec F S256x768 .f32)
    (x5 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; swap; isplitl [H1]; swap; isplitl [H2]; swap; isplitl [H3]; swap; isplitl [H4]; swap; isplitl [H5]; swap
  iexists _; isplitr
  swap; · iexact H6
  ipureintro
  exact View.read_writes_eq_canon _ _ _ (View.cover_of_tiled _ S256x768.size (by rfl))
  all_goals
    iexists _; isplitr; swap
    · iassumption
    ipureintro; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := rfl

theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_of (c : Dev nD) (t : Fin cfg4.N) : ∀ w : Fin cfg4.W, w.val < 6 → ∀ d, (dat4 V c).before w t d = (dat4 V c).after w t
  | ⟨0, _⟩, _, d | ⟨1, _⟩, _, d | ⟨2, _⟩, _, d | ⟨3, _⟩, _, d | ⟨4, _⟩, _, d | ⟨5, _⟩, _, d =>
    (dat4 V c).before_in_eq_fetched _ rfl (fun _ => rfl) (fun _ _ _ => rfl) (fun _ => rfl) t d
  | ⟨_ + 6, _⟩, h, _ => absurd h (Nat.not_lt.2 (Nat.le_add_left _ _))

theorem body_obligation4 (c : Dev nD) : BodyObligation (dat4 (F := F) V c) (defs₀ (F := F)) Variants.none () Set.univ := fun t => by
  show _ ⊢ wp frame _ _ (bodyAt4 t) fun _ => iprop((dat4 V c).Φ t.castSucc ∗ (dat4 V c).owesAt () t.castSucc
      ∗ bigSep Finset.univ fun w => owns _ _ _ ((dat4 V c).after w t))
  rw [bigSep_W4, bigSep_W4]
  simp (disch := decide) only [before4_of V c t, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe HΦ Ho H0 H1 H2 H3 H4 H5
  iexact H6

end Cert.Kernel.Gen

end
-- ==== Proof.K.Fold.lean ====
import proofs.«430777_j3556232921556_3_alg».proof.Proof.K.RegionsP
import proofs.«430777_j3556232921556_3_alg».proof.Proof.K.Reg0
import proofs.«430777_j3556232921556_3_alg».proof.Proof.K.Reg1
import proofs.«430777_j3556232921556_3_alg».proof.Proof.K.Reg2
import proofs.«430777_j3556232921556_3_alg».proof.Proof.K.Reg3
import proofs.«430777_j3556232921556_3_alg».proof.Proof.K.Reg4

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The contents of a core's buffers at each boundary: a host stretch acts on them, a region replaces its output arrays by its results. -/
abbrev X1 (c : Dev nD) : Valuation τ sig (Elt F) := V1 m c

def o2 (c : Dev nD) : Buf (Elt F) ((c : Thread nD τ).loc main_v13) := (dat0 (fun c b => X1 m c b) c).arrAt 3 cfg0.N

def X2 (c : Dev nD) : Valuation τ sig (Elt F) := Function.update (X1 m c) (Proc.devRef .tc main_v13) (o2 m c)

abbrev X3 (c : Dev nD) : Valuation τ sig (Elt F) := StableHlo.after hostOps1 (X2 m c)

def o4 (c : Dev nD) : Buf (Elt F) ((c : Thread nD τ).loc main_v25) := (dat1 (fun c b => X3 m c b) c).arrAt 5 cfg1.N

def X4 (c : Dev nD) : Valuation τ sig (Elt F) := Function.update (X3 m c) (Proc.devRef .tc main_v25) (o4 m c)

abbrev X5 (c : Dev nD) : Valuation τ sig (Elt F) := StableHlo.after hostOps2 (X4 m c)

def o6 (c : Dev nD) : Buf (Elt F) ((c : Thread nD τ).loc main_v37) := (dat2 (fun c b => X5 m c b) c).arrAt 5 cfg2.N

def X6 (c : Dev nD) : Valuation τ sig (Elt F) := Function.update (X5 m c) (Proc.devRef .tc main_v37) (o6 m c)

abbrev X7 (c : Dev nD) : Valuation τ sig (Elt F) := StableHlo.after hostOps3 (X6 m c)

def o8a (c : Dev nD) : Buf (Elt F) ((c : Thread nD τ).loc main_v49_0) := (dat3 (fun c b => X7 m c b) c).arrAt 5 cfg3.N
def o8b (c : Dev nD) : Buf (Elt F) ((c : Thread nD τ).loc main_v49_1) := (dat3 (fun c b => X7 m c b) c).arrAt 6 cfg3.N

def X8 (c : Dev nD) : Valuation τ sig (Elt F) :=
  Function.update (Function.update (X7 m c) (Proc.devRef .tc main_v49_0) (o8a m c)) (Proc.devRef .tc main_v49_1) (o8b m c)

def o9 (c : Dev nD) : Buf (Elt F) ((c : Thread nD τ).loc main_v50) := (dat4 (fun c b => X8 m c b) c).arrAt 6 cfg4.N

def X9 (c : Dev nD) : Valuation τ sig (Elt F) := Function.update (X8 m c) (Proc.devRef .tc main_v50) (o9 m c)

theorem X2_out (c : Dev nD) : X2 m c (Proc.devRef .tc main_v13) = o2 m c := by
  unfold X2; exact Function.update_self _ _ _
theorem X2_of_ne (c : Dev nD) (b : Ref sig .tc) (h : b ≠ main_v13) : X2 m c (Proc.devRef .tc b) = X1 m c (Proc.devRef .tc b) := by
  unfold X2; exact Function.update_of_ne (StableHlo.devRef_ne_of_ne h) _ _
theorem X4_out (c : Dev nD) : X4 m c (Proc.devRef .tc main_v25) = o4 m c := by
  unfold X4; exact Function.update_self _ _ _
theorem X4_of_ne (c : Dev nD) (b : Ref sig .tc) (h : b ≠ main_v25) : X4 m c (Proc.devRef .tc b) = X3 m c (Proc.devRef .tc b) := by
  unfold X4; exact Function.update_of_ne (StableHlo.devRef_ne_of_ne h) _ _
theorem X6_out (c : Dev nD) : X6 m c (Proc.devRef .tc main_v37) = o6 m c := by
  unfold X6; exact Function.update_self _ _ _
theorem X6_of_ne (c : Dev nD) (b : Ref sig .tc) (h : b ≠ main_v37) : X6 m c (Proc.devRef .tc b) = X5 m c (Proc.devRef .tc b) := by
  unfold X6; exact Function.update_of_ne (StableHlo.devRef_ne_of_ne h) _ _
theorem X8_out_b (c : Dev nD) : X8 m c (Proc.devRef .tc main_v49_1) = o8b m c := by
  unfold X8; exact Function.update_self _ _ _
theorem X8_out_a (c : Dev nD) : X8 m c (Proc.devRef .tc main_v49_0) = o8a m c := by
  unfold X8
  rw [Function.update_of_ne (StableHlo.devRef_ne_of_ne (by decide : main_v49_0 ≠ main_v49_1))]
  exact Function.update_self _ _ _
theorem X8_of_ne (c : Dev nD) (b : Ref sig .tc) (h0 : b ≠ main_v49_0) (h1 : b ≠ main_v49_1) :
    X8 m c (Proc.devRef .tc b) = X7 m c (Proc.devRef .tc b) := by
  unfold X8
  rw [Function.update_of_ne (StableHlo.devRef_ne_of_ne h1), Function.update_of_ne (StableHlo.devRef_ne_of_ne h0)]
theorem X9_out (c : Dev nD) : X9 m c (Proc.devRef .tc main_v50) = o9 m c := by
  unfold X9; exact Function.update_self _ _ _
theorem X9_of_ne (c : Dev nD) (b : Ref sig .tc) (h : b ≠ main_v50) : X9 m c (Proc.devRef .tc b) = X8 m c (Proc.devRef .tc b) := by
  unfold X9; exact Function.update_of_ne (StableHlo.devRef_ne_of_ne h) _ _

def outsX : Outs (F := F) := fun J r c =>
  match J with
  | 2 => X2 m c (Proc.devRef .tc r)
  | 4 => X4 m c (Proc.devRef .tc r)
  | 6 => X6 m c (Proc.devRef .tc r)
  | 8 => X8 m c (Proc.devRef .tc r)
  | _ => X9 m c (Proc.devRef .tc r)

theorem V2_eq (c : Dev nD) : V2 m (outsX m) c = X2 m c := by
  show Function.update (V1 m c) (Proc.devRef .tc main_v13) (X2 m c (Proc.devRef .tc main_v13)) = X2 m c
  rw [X2_out]; rfl
theorem V3_eq (c : Dev nD) : V3 m (outsX m) c = X3 m c := by
  show StableHlo.after hostOps1 (V2 m (outsX m) c) = X3 m c
  rw [V2_eq]
theorem V4_eq (c : Dev nD) : V4 m (outsX m) c = X4 m c := by
  show Function.update (V3 m (outsX m) c) (Proc.devRef .tc main_v25) (X4 m c (Proc.devRef .tc main_v25)) = X4 m c
  rw [V3_eq, X4_out]; rfl
theorem V5_eq (c : Dev nD) : V5 m (outsX m) c = X5 m c := by
  show StableHlo.after hostOps2 (V4 m (outsX m) c) = X5 m c
  rw [V4_eq]
theorem V6_eq (c : Dev nD) : V6 m (outsX m) c = X6 m c := by
  show Function.update (V5 m (outsX m) c) (Proc.devRef .tc main_v37) (X6 m c (Proc.devRef .tc main_v37)) = X6 m c
  rw [V5_eq, X6_out]; rfl
theorem V7_eq (c : Dev nD) : V7 m (outsX m) c = X7 m c := by
  show StableHlo.after hostOps3 (V6 m (outsX m) c) = X7 m c
  rw [V6_eq]
theorem V8_eq (c : Dev nD) : V8 m (outsX m) c = X8 m c := by
  show Function.update (Function.update (V7 m (outsX m) c) (Proc.devRef .tc main_v49_0) (X8 m c (Proc.devRef .tc main_v49_0)))
      (Proc.devRef .tc main_v49_1) (X8 m c (Proc.devRef .tc main_v49_1)) = X8 m c
  rw [V7_eq, X8_out_a, X8_out_b]; rfl
theorem V9_eq (c : Dev nD) : V9 m (outsX m) c = X9 m c := by
  show Function.update (V8 m (outsX m) c) (Proc.devRef .tc main_v50) (X9 m c (Proc.devRef .tc main_v50)) = X9 m c
  rw [V8_eq, X9_out]; rfl

def pdats : (p : Fin 5) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) c
  | ⟨4, _⟩ => fun c => dat4 (fun c b => X8 m c b) c

end Cert.Kernel.Gen

end
-- ==== Proof.K.Segs.lean ====
import proofs.«430777_j3556232921556_3_alg».proof.Proof.K.Fold
import Idealize.ShloMosaic.Lib.Pipeline.Frame
import Idealize.ShloMosaic.Lib.Pipeline.Regions
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E1 (c : Dev nD) : (b : Ref sig .tc) → Buf (Elt F) ((c : Thread nD τ).loc b) := fun b => X1 m c b
abbrev E2 (c : Dev nD) : (b : Ref sig .tc) → Buf (Elt F) ((c : Thread nD τ).loc b) := fun b => X2 m c b
abbrev E3 (c : Dev nD) : (b : Ref sig .tc) → Buf (Elt F) ((c : Thread nD τ).loc b) := fun b => X3 m c b
abbrev E4 (c : Dev nD) : (b : Ref sig .tc) → Buf (Elt F) ((c : Thread nD τ).loc b) := fun b => X4 m c b
abbrev E5 (c : Dev nD) : (b : Ref sig .tc) → Buf (Elt F) ((c : Thread nD τ).loc b) := fun b => X5 m c b
abbrev E6 (c : Dev nD) : (b : Ref sig .tc) → Buf (Elt F) ((c : Thread nD τ).loc b) := fun b => X6 m c b
abbrev E7 (c : Dev nD) : (b : Ref sig .tc) → Buf (Elt F) ((c : Thread nD τ).loc b) := fun b => X7 m c b
abbrev E8 (c : Dev nD) : (b : Ref sig .tc) → Buf (Elt F) ((c : Thread nD τ).loc b) := fun b => X8 m c b
abbrev E9 (c : Dev nD) : (b : Ref sig .tc) → Buf (Elt F) ((c : Thread nD τ).loc b) := fun b => X9 m c b

/-- After the last point an input array is as the region found it and an output array holds the region's result: the exit contents, window by window. -/
theorem hF0 (c : Dev nD) : ∀ w : Fin cfg0.W, (dat0 (fun c b => X1 m c b) c).arrAt w cfg0.N = E2 m c (Pipeline.arrRef spec0 w)
  | ⟨3, _⟩ => (X2_out m c).symm
  | ⟨0, _⟩ | ⟨1, _⟩ | ⟨2, _⟩ =>
    ((dat0 (fun c b => X1 m c b) c).arrAt_in _ rfl _).trans ((A_eq0 (fun c b => X1 m c b) c _).trans (X2_of_ne m c _ (by decide +revert)).symm)
theorem hrest0 (c : Dev nD) : ∀ b, b ∉ Finset.univ.image (Pipeline.arrRef spec0) → E2 m c b = E1 m c b :=
  fun b hb => X2_of_ne m c b (fun e => hb (Finset.mem_image.mpr ⟨3, Finset.mem_univ _, e.symm⟩))

theorem hF1 (c : Dev nD) : ∀ w : Fin cfg1.W, (dat1 (fun c b => X3 m c b) c).arrAt w cfg1.N = E4 m c (Pipeline.arrRef spec1 w)
  | ⟨5, _⟩ => (X4_out m c).symm
  | ⟨0, _⟩ | ⟨1, _⟩ | ⟨2, _⟩ | ⟨3, _⟩ | ⟨4, _⟩ =>
    ((dat1 (fun c b => X3 m c b) c).arrAt_in _ rfl _).trans ((A_eq1 (fun c b => X3 m c b) c _).trans (X4_of_ne m c _ (by decide +revert)).symm)
theorem hrest1 (c : Dev nD) : ∀ b, b ∉ Finset.univ.image (Pipeline.arrRef spec1) → E4 m c b = E3 m c b :=
  fun b hb => X4_of_ne m c b (fun e => hb (Finset.mem_image.mpr ⟨5, Finset.mem_univ _, e.symm⟩))

theorem hF2 (c : Dev nD) : ∀ w : Fin cfg2.W, (dat2 (fun c b => X5 m c b) c).arrAt w cfg2.N = E6 m c (Pipeline.arrRef spec2 w)
  | ⟨5, _⟩ => (X6_out m c).symm
  | ⟨0, _⟩ | ⟨1, _⟩ | ⟨2, _⟩ | ⟨3, _⟩ | ⟨4, _⟩ =>
    ((dat2 (fun c b => X5 m c b) c).arrAt_in _ rfl _).trans ((A_eq2 (fun c b => X5 m c b) c _).trans (X6_of_ne m c _ (by decide +revert)).symm)
theorem hrest2 (c : Dev nD) : ∀ b, b ∉ Finset.univ.image (Pipeline.arrRef spec2) → E6 m c b = E5 m c b :=
  fun b hb => X6_of_ne m c b (fun e => hb (Finset.mem_image.mpr ⟨5, Finset.mem_univ _, e.symm⟩))

theorem hF3 (c : Dev nD) : ∀ w : Fin cfg3.W, (dat3 (fun c b => X7 m c b) c).arrAt w cfg3.N = E8 m c (Pipeline.arrRef spec3 w)
  | ⟨5, _⟩ => (X8_out_a m c).symm
  | ⟨6, _⟩ => (X8_out_b m c).symm
  | ⟨0, _⟩ | ⟨1, _⟩ | ⟨2, _⟩ | ⟨3, _⟩ | ⟨4, _⟩ =>
    ((dat3 (fun c b => X7 m c b) c).arrAt_in _ rfl _).trans ((A_eq3 (fun c b => X7 m c b) c _).trans (X8_of_ne m c _ (by decide +revert) (by decide +revert)).symm)
theorem hrest3 (c : Dev nD) : ∀ b, b ∉ Finset.univ.image (Pipeline.arrRef spec3) → E8 m c b = E7 m c b :=
  fun b hb => X8_of_ne m c b (fun e => hb (Finset.mem_image.mpr ⟨5, Finset.mem_univ _, e.symm⟩)) (fun e => hb (Finset.mem_image.mpr ⟨6, Finset.mem_univ _, e.symm⟩))

theorem hF4 (c : Dev nD) : ∀ w : Fin cfg4.W, (dat4 (fun c b => X8 m c b) c).arrAt w cfg4.N = E9 m c (Pipeline.arrRef spec4 w)
  | ⟨6, _⟩ => (X9_out m c).symm
  | ⟨0, _⟩ | ⟨1, _⟩ | ⟨2, _⟩ | ⟨3, _⟩ | ⟨4, _⟩ | ⟨5, _⟩ =>
    ((dat4 (fun c b => X8 m c b) c).arrAt_in _ rfl _).trans ((A_eq4 (fun c b => X8 m c b) c _).trans (X9_of_ne m c _ (by decide +revert)).symm)
theorem hrest4 (c : Dev nD) : ∀ b, b ∉ Finset.univ.image (Pipeline.arrRef spec4) → E9 m c b = E8 m c b :=
  fun b hb => X9_of_ne m c b (fun e => hb (Finset.mem_image.mpr ⟨6, Finset.mem_univ _, e.symm⟩))

abbrev Eof (X : Dev nD → Valuation τ sig (Elt F)) (c : Dev nD) : (b : Ref sig .tc) → Buf (Elt F) ((c : Thread nD τ).loc b) :=
  fun b => X c b

set_option backward.isDefEq.respectTransparency.types false

/-- A region over the thread state: its arrays are split out of the unscoped buffers at entry and put back at the exit contents. -/
def regOf (p : Fin 5) (lf : Pipeline.LaunchFacts (nD := nD) (τ := τ) cfgs p) (Xi Xo Vi Vo : Dev nD → Valuation τ sig (Elt F))
    (hb : ∀ c, BodyObligation (pdats m p c) (defs₀ (F := F)) 𝒱₀ () Set.univ)
    (howed : ∀ c t, (pdats m p c).owed t = 0) (hrec : ∀ c x, x ∈ (pdats m p c).recorded 0) (hq : ∀ c w, (pdats m p c).q w = fullShare)
    (hVi : ∀ c, Vi c = Xi c) (hVo : ∀ c, Vo c = Xo c)
    (hA : ∀ c w, (pdats m p c).A w = Eof Xi c (Pipeline.arrRef (cfgs p).spec w))
    (hΦ0 : ∀ c, (pdats m p c).Φ 0 = Pipeline.ΦA (cfgs p).spec c)
    (hΦN : ∀ c, (pdats m p c).Φ (Fin.last _) ⊢ Pipeline.ΦA (cfgs p).spec c)
    (hF : ∀ c w, (pdats m p c).arrAt w (cfgs p).N = Eof Xo c (Pipeline.arrRef (cfgs p).spec w))
    (hrest : ∀ c b, b ∉ Finset.univ.image (Pipeline.arrRef (cfgs p).spec) → Eof Xo c b = Eof Xi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (Eof Xi c)
  hentry c := by
    rw [Pipeline.ownSems0_none, hVi c]
    unfold Pipeline.Dat.owesAt
    rw [howed c]
    have hsplit := Pipeline.arrays_of_unscopedBufs (p := p) (pcfgs (F := F)) adm (pdats m) lf.win lf.arr_whole c
      ((pdats m p c).share_full (hq c)) (Eof Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    rw [hVo c]
    unfold Pipeline.Dat.owesAt
    rw [howed c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Eof Xi c) (Eof Xo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := regOf m 0 launch0 (X1 m) (X2 m) (V1 m) (V2 m (outsX m)) (body_obligation0 fun c b => X1 m c b) (fun _ _ => rfl) (fun _ _ => trivial) (fun _ _ => rfl)
  (fun _ => rfl) (V2_eq m) (fun _ _ => rfl) (fun _ => rfl) (fun _ => .rfl) (hF0 m) (hrest0 m)
def reg1 := regOf m 1 launch1 (X3 m) (X4 m) (V3 m (outsX m)) (V4 m (outsX m)) (body_obligation1 fun c b => X3 m c b) (fun _ _ => rfl) (fun _ _ => trivial) (fun _ _ => rfl)
  (V3_eq m) (V4_eq m) (fun _ _ => rfl) (fun _ => rfl) (fun _ => .rfl) (hF1 m) (hrest1 m)
def reg2 := regOf m 2 launch2 (X5 m) (X6 m) (V5 m (outsX m)) (V6 m (outsX m)) (body_obligation2 fun c b => X5 m c b) (fun _ _ => rfl) (fun _ _ => trivial) (fun _ _ => rfl)
  (V5_eq m) (V6_eq m) (fun _ _ => rfl) (fun _ => rfl) (fun _ => .rfl) (hF2 m) (hrest2 m)
def reg3 := regOf m 3 launch3 (X7 m) (X8 m) (V7 m (outsX m)) (V8 m (outsX m)) (body_obligation3 fun c b => X7 m c b) (fun _ _ => rfl) (fun _ _ => trivial) (fun _ _ => rfl)
  (V7_eq m) (V8_eq m) (fun _ _ => rfl) (Phi3_zero fun c b => X7 m c b) (Phi3_last_out fun c b => X7 m c b) (hF3 m) (hrest3 m)
def reg4 := regOf m 4 launch4 (X8 m) (X9 m) (V8 m (outsX m)) (V9 m (outsX m)) (body_obligation4 fun c b => X8 m c b) (fun _ _ => rfl) (fun _ _ => trivial) (fun _ _ => rfl)
  (V8_eq m) (V9_eq m) (fun _ _ => rfl) (fun _ => rfl) (fun _ => .rfl) (hF4 m) (hrest4 m)

end Cert.Kernel.Gen

end
-- ==== Proof.K.Run.lean ====
import proofs.«430777_j3556232921556_3_alg».proof.Proof.K.Segs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_step (c : Dev nD) :
    (iprop(StableHlo.held (c : Thread nD τ) (Pipeline.ucRefs τ sig) (V9 m (outsX m) c) ∗ R c) : sProp 𝕄)
      ⊢ iprop(iprop(StableHlo.held (c : Thread nD τ) (Pipeline.ucRefs τ sig) (X9 m c) ∗ ∃ r, prngReg c r)
          ∗ ∃ W, owes (c : Thread nD τ) (0 : CellTallies nD τ sig Unit) W) := by
  rw [V9_eq]
  iintro ⟨Hh, Hp, HO⟩
  isplitl [Hh Hp]
  · isplitl [Hh]; · iexact Hh
    iexact Hp
  iexact HO

set_option backward.isDefEq.respectTransparency.types false in

/-- The nine items in order, each entered from the thread state the one before it left: every execution ends with each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X9 m c b) :=
  Pipeline.θ_run_regions_kit_dev (pcfgs (F := F)) adm (pdats m) () cellOf_inj emb₁ defs₀ 𝒱₀ L lv m ρ main
    (segs m (outsX m) 𝒱₀ L lv (fun _ => R) () (pdats m) (reg0 m) (reg1 m) (reg2 m) (reg3 m) (reg4 m))
    (fun c Q => by
      rewrite [main_chain c, Seg.run_eq_chain,
        show ((segs m (outsX m) 𝒱₀ L lv (fun _ => R) () (pdats m) (reg0 m) (reg1 m) (reg2 m) (reg3 m) (reg4 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X9 m c) ∗ ∃ r, prngReg c r))
    (hch := fun c => ⟨.rfl, .rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X9 m c b)
    (hfin := fun c s' => by
      iintro ⟨⟨Hh, -⟩, HSI⟩
      unfold StableHlo.held
      imodintro
      iapply (pointsTo_read_all (Pipeline.ucRefs τ sig) (fun b => (((c : Thread nD τ)).1, b)) (X9 m c) s')
      isplitl [Hh] <;> iassumption)
    (hQ := fun s h => h)

abbrev args : List (Ref sig .tc) :=
  [main_arg0, main_arg1, main_arg2, main_arg3, main_arg4, main_arg5, main_arg6, main_arg7, main_arg8, main_arg9, main_arg10, main_arg11, main_arg12]

/-- The argument buffers are unscoped and apart from every buffer an item of the program writes. -/
theorem args_apart : ∀ a ∈ args, ¬ (Proc.devRef .tc a : DevRef τ sig).isScoped ∧ a ∉ hostOps0_W ∧ a ∉ ([main_v13] : List (Ref sig .tc))
    ∧ a ∉ hostOps1_W ∧ a ∉ ([main_v25] : List (Ref sig .tc)) ∧ a ∉ hostOps2_W ∧ a ∉ ([main_v37] : List (Ref sig .tc)) ∧ a ∉ hostOps3_W
    ∧ a ∉ ([main_v49_0, main_v49_1] : List (Ref sig .tc)) ∧ a ∉ ([main_v50] : List (Ref sig .tc)) := by decide

theorem read_arg (s : MemSt nD τ sig (Elt F)) (h : ∀ c : Dev nD, ∀ b ∈ Pipeline.ucRefs τ sig, s.mem ((c : Thread nD τ).1, b) = X9 m c b)
    (c : Dev nD) (a : Ref sig .tc) (ha : a ∈ args) : s.mem ((c.tc : Thread nD τ).loc a) = m ((c.tc : Thread nD τ).loc a) :=
  have ⟨hs, h1, h2, h3, h4, h5, h6, h7, h8, h9⟩ := args_apart a ha
  (h c _ (mem_uc a hs)).trans ((congrFun (V9_eq m c) (Proc.devRef .tc a)).symm.trans (V9_keep m (outsX m) c a h1 h2 h3 h4 h5 h6 h7 h8 h9))

abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

/-- The result buffer ends at what the last region leaves in it, and every argument as launched. -/
theorem run_value : θ_run defs (onTc (τ := τ) (main (F := F))) ⟨m, fun _ => 0, ρ⟩ (fun r => ∀ c : Dev nD,
      r.2.mem ((c.tc : Thread nD τ).loc main_v50) = o9 m c ∧ ArgsKept m r.2 c) :=
  (θ_run defs _ _).mono (fun r h c =>
    ⟨(h c _ (mem_uc main_v50 (by decide))).trans (X9_out m c),
      read_arg m r.2 h c main_arg0 (by decide),
      read_arg m r.2 h c main_arg1 (by decide),
      read_arg m r.2 h c main_arg2 (by decide),
      read_arg m r.2 h c main_arg3 (by decide),
      read_arg m r.2 h c main_arg4 (by decide),
      read_arg m r.2 h c main_arg5 (by decide),
      read_arg m r.2 h c main_arg6 (by decide),
      read_arg m r.2 h c main_arg7 (by decide),
      read_arg m r.2 h c main_arg8 (by decide),
      read_arg m r.2 h c main_arg9 (by decide),
      read_arg m r.2 h c main_arg10 (by decide),
      read_arg m r.2 h c main_arg11 (by decide),
      read_arg m r.2 h c main_arg12 (by decide)⟩) (run_all m ρ)

theorem frame : θ_run defs (onTc (τ := τ) (main (F := F))) ⟨m, fun _ => 0, ρ⟩ (fun r => ∀ c : Dev nD, ArgsKept m r.2 c) :=
  (θ_run defs _ _).mono (fun _ h c => (h c).2) (run_value m ρ)

end Cert.Kernel.Gen

end
-- ==== Proof.KI.LaunchP.lean ====
import proofs.«430777_j3556232921556_3_alg».proof.Proof.Gen.KernelIdeal
import Idealize.ShloMosaic.Lib.Pipeline.Kit
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 5 → List (DmaSem sig) :=
  fun | 0 => Pipeline.specSems spec0 | 1 => Pipeline.specSems spec1 | 2 => Pipeline.specSems spec2 | 3 => Pipeline.specSems spec3 | 4 => Pipeline.specSems spec4 | ⟨_ + 5, h⟩ => absurd h (Nat.not_lt.2 (Nat.le_add_left _ _))

theorem semsDistinct : ∀ p : Fin 5, (semTab p).Nodup := by decide

theorem semsDisjoint : ∀ p p' : Fin 5, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | 2 => rfl | 3 => rfl | 4 => rfl | ⟨_ + 5, h⟩ => absurd h (Nat.not_lt.2 (Nat.le_add_left _ _))) semsDistinct semsDisjoint

theorem winFacts0 : Pipeline.WinFacts spec0 := by decide

theorem block_pos0 : ∀ w : Fin 4, 0 < (spec0 w).block.numel := by decide

theorem arr_whole0 : ∀ w : Fin 4, (spec0 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole0 : ∀ (w : Fin 4) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | ⟨_ + 4, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem bigSep_W0 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem winFacts1 : Pipeline.WinFacts spec1 := by decide

theorem block_pos1 : ∀ w : Fin 6, 0 < (spec1 w).block.numel := by decide

theorem arr_whole1 : ∀ w : Fin 6, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
theorem stage_whole1 : ∀ (w : Fin 6) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | ⟨_ + 6, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem bigSep_W1 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem winFacts2 : Pipeline.WinFacts spec2 := by decide

theorem block_pos2 : ∀ w : Fin 6, 0 < (spec2 w).block.numel := by decide

theorem arr_whole2 : ∀ w : Fin 6, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
theorem stage_whole2 : ∀ (w : Fin 6) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | ⟨_ + 6, h⟩ => absurd h (Nat.not_lt.2 (Nat.le_add_left _ _))

theorem launch2 : Pipeline.LaunchFacts (nD := nD) (τ := τ) cfgs 2 := ⟨cellOf_inj, winFacts2, block_pos2, arr_whole2, stage_whole2⟩

theorem bigSep_W2 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem winFacts3 : Pipeline.WinFacts spec3 := by decide

theorem block_pos3 : ∀ w : Fin 7, 0 < (spec3 w).block.numel := by decide

theorem arr_whole3 : ∀ w : Fin 7, (spec3 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole3 : ∀ (w : Fin 7) (s : Fin (spec3 w).nbuf), ((spec3 w).stage s).IsWhole := fun | 0 => fun s => hstage3_0 (s.cast nbuf3_0) | 1 => fun s => hstage3_1 (s.cast nbuf3_1) | 2 => fun s => hstage3_2 (s.cast nbuf3_2) | 3 => fun s => hstage3_3 (s.cast nbuf3_3) | 4 => fun s => hstage3_4 (s.cast nbuf3_4) | 5 => fun s => hstage3_5 (s.cast nbuf3_5) | 6 => fun s => hstage3_6 (s.cast nbuf3_6) | ⟨_ + 7, h⟩ => absurd h (Nat.not_lt.2 (Nat.le_add_left _ _))

theorem launch3 : Pipeline.LaunchFacts (nD := nD) (τ := τ) cfgs 3 := ⟨cellOf_inj, winFacts3, block_pos3, arr_whole3, stage_whole3⟩

theorem N_3 : grid3.N = 10 := by decide

def t3_0 : Fin grid3.N := ⟨0, by rw [N_3]; decide⟩

theorem bigSep_W3 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f) ∗ (∃ f : Buf Val ((c : Thread nD τ).loc cc3_scratch1), ((c : Thread nD τ).loc cc3_scratch1) ↦{fullShare} f))
          ∗ Pipeline.scopedRestBut (Ix := Ix) (Name := Name) (U := U) (Lvl := Lvl) (Val := Val) spec3 c [cc3_scratch0, cc3_scratch1]) :=
  Pipeline.scopedRest_split_of_list spec3 c [cc3_scratch0, cc3_scratch1] (by decide) (by decide)

theorem winFacts4 : Pipeline.WinFacts spec4 := by decide

theorem block_pos4 : ∀ w : Fin 7, 0 < (spec4 w).block.numel := by decide

theorem arr_whole4 : ∀ w : Fin 7, (spec4 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole4 : ∀ (w : Fin 7) (s : Fin (spec4 w).nbuf), ((spec4 w).stage s).IsWhole := fun | 0 => fun s => hstage4_0 (s.cast nbuf4_0) | 1 => fun s => hstage4_1 (s.cast nbuf4_1) | 2 => fun s => hstage4_2 (s.cast nbuf4_2) | 3 => fun s => hstage4_3 (s.cast nbuf4_3) | 4 => fun s => hstage4_4 (s.cast nbuf4_4) | 5 => fun s => hstage4_5 (s.cast nbuf4_5) | 6 => fun s => hstage4_6 (s.cast nbuf4_6) | ⟨_ + 7, h⟩ => absurd h (Nat.not_lt.2 (Nat.le_add_left _ _))

theorem launch4 : Pipeline.LaunchFacts (nD := nD) (τ := τ) cfgs 4 := ⟨cellOf_inj, winFacts4, block_pos4, arr_whole4, stage_whole4⟩

theorem N_4 : grid4.N = 1 := by decide

def t4_0 : Fin grid4.N := ⟨0, by rw [N_4]; decide⟩

theorem bigSep_W4 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

abbrev hostOps0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.reshape main_v10 main_v11 rfl shapeCasts_S50000_S50000x1,
    StableHlo.reshape main_arg2 main_v12 rfl shapeCasts_S50000_S50000x1 ]

theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.reshape_bufs_sub .., StableHlo.reshape_bufs_sub ..⟩

abbrev hostOps1 : List (HloOp τ sig (Elt F)) :=
  [ StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v20 main_v21 ((extf .f32 · bitsLt_bf16_f32) : (⟨S800000x128, .bf16⟩ : BufTy).Contents (Elt F) → (⟨S800000x128, .f32⟩ : BufTy).Contents (Elt F)),
    StableHlo.nullary main_cst_3 (constant S_ .f32 0x00000000#32),
    StableHlo.unary main_cst_3 main_v22 (broadcastInDim S50000x128 ![] bcast_S_S50000x128 : (⟨S_, .f32⟩ : BufTy).Contents (Elt F) → (⟨S50000x128, .f32⟩ : BufTy).Contents (Elt F)),
    StableHlo.unary main_v3 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps1_sub : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps2 : List (HloOp τ sig (Elt F)) :=
  [ StableHlo.nullary main_c_4 (constantI S_ 32 0#32),
    StableHlo.unary main_c_4 main_v26 (broadcastInDim S800000 ![] bcast_S_S800000 : (⟨S_, .i32⟩ : BufTy).Contents (Elt F) → (⟨S800000, .i32⟩ : BufTy).Contents (Elt F)),
    StableHlo.binary main_v1 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v28 (broadcastInDim S800000 ![] bcast_S_S800000 : (⟨S_, .i32⟩ : BufTy).Contents (Elt F) → (⟨S800000, .i32⟩ : BufTy).Contents (Elt F)),
    StableHlo.binary main_v1 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v25 main_v31 main_v32 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v32 main_v33 ((extf .f32 · bitsLt_bf16_f32) : (⟨S800000x128, .bf16⟩ : BufTy).Contents (Elt F) → (⟨S800000x128, .f32⟩ : BufTy).Contents (Elt F)),
    StableHlo.nullary main_cst_6 (constant S_ .f32 0x00000000#32),
    StableHlo.unary main_cst_6 main_v34 (broadcastInDim S50000x128 ![] bcast_S_S50000x128 : (⟨S_, .f32⟩ : BufTy).Contents (Elt F) → (⟨S50000x128, .f32⟩ : BufTy).Contents (Elt F)),
    StableHlo.unary main_v3 main_v35 (broadcastInDim S800000x1 ![0] bcast_S800000_S800000x1_0 : (⟨S800000, .i32⟩ : BufTy).Contents (Elt F) → (⟨S800000x1, .i32⟩ : BufTy).Contents (Elt F)),
    StableHlo.ternary main_v34 main_v35 main_v33 main_v36 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps2_sub : (hostOps2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev hostOps3 : List (HloOp τ sig (Elt F)) :=
  [ StableHlo.nullary main_c_7 (constantI S_ 32 0#32),
    StableHlo.unary main_c_7 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v44 main_v45 ((extf .f32 · bitsLt_bf16_f32) : (⟨S800000x128, .bf16⟩ : BufTy).Contents (Elt F) → (⟨S800000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem hostOps3_sub : (hostOps3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

abbrev main_part0_ops3 : List (HloOp τ sig (Elt F)) :=
  [ StableHlo.nullary main_c_7 (constantI S_ 32 0#32),
    StableHlo.unary main_c_7 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_v44 main_v45 ((extf .f32 · bitsLt_bf16_f32) : (⟨S800000x128, .bf16⟩ : BufTy).Contents (Elt F) → (⟨S800000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)) ]

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ]
  (StableHlo.seq main_part0_ops3) : Prog (TpuEff nD τ sig (Elt F) (Pipeline.Sig Λ₀ (Fin 5) fun p => (pcfgs (F := F) p).Adm) .tc) PUnit) := by
  chain_rfl

abbrev main_part1_ops0 : List (HloOp τ sig (Elt F)) :=
  [ StableHlo.ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem main_part1_chain (c : Dev nD) : main_part1 (F := F) c = (Pipeline.chain
  [ StableHlo.seq main_part1_ops0,
    Prog.lift (.customCall (Pipeline.entry 3) ()),
    Prog.lift (.customCall (Pipeline.entry 4) ()) ] : Prog (TpuEff nD τ sig (Elt F) (Pipeline.Sig Λ₀ (Fin 5) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    Prog.lift (.customCall (Pipeline.entry 4) ()) ] : Prog (TpuEff nD τ sig (Elt F) (Pipeline.Sig Λ₀ (Fin 5) fun p => (pcfgs (F := F) p).Adm) .tc) PUnit) := by
  show (main_part0 (F := F) c >>= fun _ => main_part1 (F := F) c) = _
  rewrite [main_part1_chain, main_part0_chain, Pipeline.chainK_bind_chain]
  chain_rfl

end Cert.KernelIdeal.Gen

end
-- ==== Proof.KI.RegionsP.lean ====
import proofs.«430777_j3556232921556_3_alg».proof.Proof.KI.LaunchP
import Idealize.ShloMosaic.Lib.Pipeline.Frame
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v13 (outs 2 main_v13 c)

abbrev V3 (c : Dev nD) : Valuation τ sig (Elt F) := StableHlo.after hostOps1 (V2 m outs c)

abbrev V4 (c : Dev nD) : Valuation τ sig (Elt F) := Function.update (V3 m outs c) main_v25 (outs 4 main_v25 c)

abbrev V5 (c : Dev nD) : Valuation τ sig (Elt F) := StableHlo.after hostOps2 (V4 m outs c)

abbrev V6 (c : Dev nD) : Valuation τ sig (Elt F) := Function.update (V5 m outs c) main_v37 (outs 6 main_v37 c)

abbrev V7 (c : Dev nD) : Valuation τ sig (Elt F) := StableHlo.after hostOps3 (V6 m outs c)

abbrev V8 (c : Dev nD) : Valuation τ sig (Elt F) := Function.update (Function.update (V7 m outs c) main_v49_0 (outs 8 main_v49_0 c)) main_v49_1 (outs 8 main_v49_1 c)

abbrev V9 (c : Dev nD) : Valuation τ sig (Elt F) := Function.update (V8 m outs c) main_v50 (outs 9 main_v50 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_cst, main_v4, main_cst_0, main_v5, main_v6, main_v7, main_cst_1, main_v8, main_v9, main_v10, main_v11, main_v12]
/-- Every operation of the first host stretch writes one of the listed buffers; the same of the other three stretches. -/
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_c, main_v14, main_v15, main_c_2, main_v16, main_v17, main_v18, main_v19, main_v20, main_v21, main_cst_3, main_v22, main_v23, main_v24]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_c_4, main_v26, main_v27, main_c_5, main_v28, main_v29, main_v30, main_v31, main_v32, main_v33, main_cst_6, main_v34, main_v35, main_v36]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_c_7, main_v38, main_v39, main_c_8, main_v40, main_v41, main_v42, main_v43, main_v44, main_v45, main_cst_9, main_v46, main_v47, main_v48]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v13] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v13)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v25] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v25)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v37] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v37)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v49_0, main_v49_1] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v49_0), Function.update_of_ne (StableHlo.devRef_ne_of_ne (List.ne_of_not_mem_cons (List.not_mem_of_not_mem_cons h)) : (Proc.devRef .tc r : DevRef τ sig) ≠ Proc.devRef .tc main_v49_1)]
theorem V9_of (c : Dev nD) (r : Ref sig .tc) (h : r ∉ ([main_v50] : List (Ref sig .tc))) : V9 m outs c r = V8 m outs c r := by
  simp only [V9, Function.update_of_ne (StableHlo.devRef_ne_of_ne (List.ne_of_not_mem_cons h) : (Proc.devRef .tc r : DevRef τ sig) ≠ Proc.devRef .tc main_v50)]

/-- A buffer that no host stretch and no region writes holds at the end what the launch memory held. -/
theorem V9_keep (c : Dev nD) (r : Ref sig .tc) (h1 : r ∉ hostOps0_W) (h2 : r ∉ ([main_v13] : List (Ref sig .tc))) (h3 : r ∉ hostOps1_W)
    (h4 : r ∉ ([main_v25] : List (Ref sig .tc))) (h5 : r ∉ hostOps2_W) (h6 : r ∉ ([main_v37] : List (Ref sig .tc))) (h7 : r ∉ hostOps3_W)
    (h8 : r ∉ ([main_v49_0, main_v49_1] : List (Ref sig .tc))) (h9 : r ∉ ([main_v50] : List (Ref sig .tc))) :
    V9 m outs c r = m ((c : Thread nD τ).loc r) :=
  (V9_of m outs c r h9).trans <| (V8_of m outs c r h8).trans <| (V7_of m outs c r h7).trans <| (V6_of m outs c r h6).trans <|
    (V5_of m outs c r h5).trans <| (V4_of m outs c r h4).trans <| (V3_of m outs c r h3).trans <| (V2_of m outs c r h2).trans <|
    (V1_of m c r h1).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .region R4]

end

end Cert.KernelIdeal.Gen

end
-- ==== Proof.KI.Reg0.lean ====
import proofs.«430777_j3556232921556_3_alg».proof.Proof.KI.LaunchP
import proofs.«430777_j3556232921556_3_alg».proof.Proof.Gen.KernelIdeal.Skeleton
import proofs.«430777_j3556232921556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_d : Rect S5000x1 := Rect.unit (s := S5000x1) ![0, 0] S5000x1.size inb_S5000x1_S5000x1_0_0
abbrev r0_w : Rect S128x128 := Rect.unit (s := S128x128) ![0, 0] S128x128.size inb_S128x128_S128x128_0_0

def out0_3 (x0 : Vec F S5000x128 .f32) (x1 : Vec F S5000x1 .f32) (x2 : Vec F S128x128 .f32) : Vec F S5000x128 .bf16 :=
  View.canon [⟨r0_x, k0_pay1 (View.ld x0 r0_x) (View.ld x2 r0_w) (View.ld x1 r0_d)⟩]

set_option maxHeartbeats 4000000 in

theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .bf16) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_linear_kernel i arg1 harg1 arg2 harg2 arg3 harg3 arg4 harg4) K := by
  simp only [cc0__scaled_linear_kernel_eq_skeleton]; unfold cc0__scaled_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; swap; isplitl [H1]; swap; isplitl [H2]; swap
  iexists _; isplitr
  swap; · iexact H3
  ipureintro
  exact View.read_writes_eq_canon _ _ _ (View.cover_of_tiled _ S5000x128.size (by rfl))
  all_goals
    iexists _; isplitr; swap
    · iassumption
    ipureintro; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0_of (c : Dev nD) (t : Fin cfg0.N) : ∀ w : Fin cfg0.W, w.val < 3 → ∀ d, (dat0 V c).before w t d = (dat0 V c).after w t
  | ⟨0, _⟩, _, d | ⟨1, _⟩, _, d | ⟨2, _⟩, _, d =>
    (dat0 V c).before_in_eq_fetched _ rfl (fun _ => rfl) (fun _ _ _ => rfl) (fun _ => rfl) t d
  | ⟨_ + 3, _⟩, h, _ => absurd h (Nat.not_lt.2 (Nat.le_add_left _ _))

theorem body_obligation0 (c : Dev nD) : BodyObligation (dat0 (F := F) V c) (defs₀ (F := F)) Variants.none () Set.univ := fun t => by
  show _ ⊢ wp frame _ _ (bodyAt0 t) fun _ => iprop((dat0 V c).Φ t.castSucc ∗ (dat0 V c).owesAt () t.castSucc
      ∗ bigSep Finset.univ fun w => owns _ _ _ ((dat0 V c).after w t))
  rw [bigSep_W0, bigSep_W0]
  simp (disch := decide) only [before0_of V c t, after0_3]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H0, H1, H2, H3⟩
  iframe HΦ Ho H0 H1 H2
  iexact H3

end Cert.KernelIdeal.Gen

end
-- ==== Proof.KI.Reg1.lean ====
import proofs.«430777_j3556232921556_3_alg».proof.Proof.KI.LaunchP
import proofs.«430777_j3556232921556_3_alg».proof.Proof.Gen.KernelIdeal.Skeleton
import proofs.«430777_j3556232921556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S128 := Rect.unit (s := S128) ![0] S128.size inb_S128_S128_0
abbrev r1_w : Rect S128x128 := Rect.unit (s := S128x128) ![0, 0] S128x128.size inb_S128x128_S128x128_0_0

def out1_5 (x0 : Vec F S5000x128 .f32) (x1 : Vec F S5000x128 .bf16) (x2 : Vec F S5000x1 .f32) (x3 : Vec F S128 .f32)
    (x4 : Vec F S128x128 .f32) : Vec F S5000x128 .bf16 :=
  View.canon [⟨r1_x, k1_pay1 (View.ld x2 r1_d) (View.ld x1 r1_x) (View.ld x0 r1_x) (View.ld x3 r1_b) (View.ld x4 r1_w)⟩]

set_option maxHeartbeats 4000000 in

theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__finalize_relu_linear_kernel i arg1 harg1 arg2 harg2 arg3 harg3 arg4 harg4 arg5 harg5 arg6 harg6) K := by
  simp only [cc1__finalize_relu_linear_kernel_eq_skeleton]; unfold cc1__finalize_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]; swap
  iexists _; isplitr
  swap; · iexact H5
  ipureintro
  exact View.read_writes_eq_canon _ _ _ (View.cover_of_tiled _ S5000x128.size (by rfl))
  all_goals
    iexists _; isplitr; swap
    · iassumption
    ipureintro; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem before1_of (c : Dev nD) (t : Fin cfg1.N) : ∀ w : Fin cfg1.W, w.val < 5 → ∀ d, (dat1 V c).before w t d = (dat1 V c).after w t
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨_ + 5, _⟩, h, _ => absurd h (Nat.not_lt.2 (Nat.le_add_left _ _))

theorem body_obligation1 (c : Dev nD) : BodyObligation (dat1 (F := F) V c) (defs₀ (F := F)) Variants.none () Set.univ := fun t => by
  show _ ⊢ wp frame _ _ (bodyAt1 t) fun _ => iprop((dat1 V c).Φ t.castSucc ∗ (dat1 V c).owesAt () t.castSucc
      ∗ bigSep Finset.univ fun w => owns _ _ _ ((dat1 V c).after w t))
  rw [bigSep_W1, bigSep_W1]
  simp (disch := decide) only [before1_of V c t, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _)
  iframe H0 H1 H2 H3 H4
  isplitl [H5]; · iexists _; iexact H5
  iintro ⟨H0, H1, H2, H3, H4, H5⟩
  iframe HΦ Ho H0 H1 H2 H3 H4
  iexact H5

end Cert.KernelIdeal.Gen

end
-- ==== Proof.KI.Reg2.lean ====
import proofs.«430777_j3556232921556_3_alg».proof.Proof.KI.LaunchP
import proofs.«430777_j3556232921556_3_alg».proof.Proof.Gen.KernelIdeal.Skeleton
import proofs.«430777_j3556232921556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_d : Rect S5000x1 := Rect.unit (s := S5000x1) ![0, 0] S5000x1.size inb_S5000x1_S5000x1_0_0
abbrev r2_b : Rect S128 := Rect.unit (s := S128) ![0] S128.size inb_S128_S128_0
abbrev r2_w : Rect S128x128 := Rect.unit (s := S128x128) ![0, 0] S128x128.size inb_S128x128_S128x128_0_0

def out2_5 (x0 : Vec F S5000x128 .f32) (x1 : Vec F S5000x128 .bf16) (x2 : Vec F S5000x1 .f32) (x3 : Vec F S128 .f32)
    (x4 : Vec F S128x128 .f32) : Vec F S5000x128 .bf16 :=
  View.canon [⟨r2_x, k2_pay1 (View.ld x2 r2_d) (View.ld x1 r2_x) (View.ld x0 r2_x) (View.ld x3 r2_b) (View.ld x4 r2_w)⟩]

set_option maxHeartbeats 4000000 in

theorem sound_kernel2 (c : Dev nD) (E : Set ℕ) (i : grid2.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__finalize_relu_linear_kernel i arg1 harg1 arg2 harg2 arg3 harg3 arg4 harg4 arg5 harg5 arg6 harg6) K := by
  simp only [cc2__finalize_relu_linear_kernel_eq_skeleton]; unfold cc2__finalize_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]; swap
  iexists _; isplitr
  swap; · iexact H5
  ipureintro
  exact View.read_writes_eq_canon _ _ _ (View.cover_of_tiled _ S5000x128.size (by rfl))
  all_goals
    iexists _; isplitr; swap
    · iassumption
    ipureintro; rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

theorem before2_of (c : Dev nD) (t : Fin cfg2.N) : ∀ w : Fin cfg2.W, w.val < 5 → ∀ d, (dat2 V c).before w t d = (dat2 V c).after w t
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨_ + 5, _⟩, h, _ => absurd h (Nat.not_lt.2 (Nat.le_add_left _ _))

theorem body_obligation2 (c : Dev nD) : BodyObligation (dat2 (F := F) V c) (defs₀ (F := F)) Variants.none () Set.univ := fun t => by
  show _ ⊢ wp frame _ _ (bodyAt2 t) fun _ => iprop((dat2 V c).Φ t.castSucc ∗ (dat2 V c).owesAt () t.castSucc
      ∗ bigSep Finset.univ fun w => owns _ _ _ ((dat2 V c).after w t))
  rw [bigSep_W2, bigSep_W2]
  simp (disch := decide) only [before2_of V c t, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _ _ _ _ _)
  iframe H0 H1 H2 H3 H4
  isplitl [H5]; · iexists _; iexact H5
  iintro ⟨H0, H1, H2, H3, H4, H5⟩
  iframe HΦ Ho H0 H1 H2 H3 H4
  iexact H5

end Cert.KernelIdeal.Gen

end
-- ==== Proof.KI.Reg3.lean ====
import proofs.«430777_j3556232921556_3_alg».proof.Proof.KI.LaunchP
import proofs.«430777_j3556232921556_3_alg».proof.Proof.Gen.KernelIdeal.Skeleton
import proofs.«430777_j3556232921556_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S128 := Rect.unit (s := S128) ![0] S128.size inb_S128_S128_0
abbrev r3_p : Rect S128x256 := Rect.unit (s := S128x256) ![0, 0] S128x256.size inb_S128x256_S128x256_0_0
abbrev r3_c : Rect S1x256 := Rect.unit (s := S1x256) ![0, 0] S1x256.size inb_S1x256_S1x256_0_0

abbrev cond3_0 (i : grid3.Coords) : Prop :=
  (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1

theorem hcond3_1 : ∀ t : Fin cfg3.N, cond3_1 (grid3.coords t) ↔ t.val % 10 = 9 :=
  (by decide +kernel : ∀ t : Fin grid3.N, cond3_1 (grid3.coords t) ↔ t.val % 10 = 9)

theorem idleAt3 : ∀ t : Fin cfg3.N, ¬cond3_1 (grid3.coords t) → (cfg3.idle 5 (grid3.coords t) = true ∧ (cfg3.win 5).flush t = false)
    ∧ cfg3.idle 6 (grid3.coords t) = true ∧ (cfg3.win 6).flush t = false := by decide +kernel
theorem liveAt3 : ∀ t : Fin cfg3.N, cond3_1 (grid3.coords t) → cfg3.idle 5 (grid3.coords t) = false ∧ cfg3.idle 6 (grid3.coords t) = false := by
  decide +kernel

def resP3 : Vec F S128x256 .f32 := View.canon [⟨r3_p, k3_pay2 (F := F)⟩]

def resC3 : Vec F S1x256 .f32 := View.canon [⟨r3_c, k3_pay3 (F := F)⟩]

def stepP3 (x0 : Vec F S5000x128 .f32) (x1 : Vec F S5000x128 .bf16) (x2 : Vec F S5000x1 .f32) (x3 : Vec F S128 .f32)
    (x4 : Vec F S5000x1 .i32) (s0 : Vec F S128x256 .f32) : Vec F S128x256 .f32 :=
  View.canon [⟨r3_p, k3_pay5 (View.ld x2 r3_d) (View.ld x1 r3_x) (View.ld x0 r3_x) (View.ld x3 r3_b) (View.ld x4 r3_d) (View.ld s0 r3_p)⟩]

def stepC3 (x4 : Vec F S5000x1 .i32) (s1 : Vec F S1x256 .f32) : Vec F S1x256 .f32 :=
  View.canon [⟨r3_c, k3_pay1 (View.ld s1 r3_c) (k3_pay6 (View.ld x4 r3_d))⟩]

def accP3 (c : Dev nD) : ℕ → Vec F S128x256 .f32
  | 0 => stepP3 (iblk3 V c 0 t3_0) (iblk3 V c 1 t3_0) (iblk3 V c 2 t3_0) (iblk3 V c 3 t3_0) (iblk3 V c 4 t3_0) resP3
  | n + 1 =>
    if h : n + 1 < cfg3.N then
      stepP3 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (accP3 c n)
    else accP3 c n

def accC3 (c : Dev nD) : ℕ → Vec F S1x256 .f32
  | 0 => stepC3 (iblk3 V c 4 t3_0) resC3
  | n + 1 => if h : n + 1 < cfg3.N then stepC3 (iblk3 V c 4 ⟨n + 1, h⟩) (accC3 c n) else accC3 c n

theorem accP3_zero (c : Dev nD) (t : Fin cfg3.N) (ht : t.val = 0) :
    accP3 V c t.val = stepP3 (iblk3 V c 0 t) (iblk3 V c 1 t) (iblk3 V c 2 t) (iblk3 V c 3 t) (iblk3 V c 4 t) resP3 := by
  obtain ⟨n, hn⟩ := t
  obtain rfl : n = 0 := ht
  rfl
theorem accP3_pos (c : Dev nD) (t : Fin cfg3.N) (ht : t.val ≠ 0) :
    accP3 V c t.val = stepP3 (iblk3 V c 0 t) (iblk3 V c 1 t) (iblk3 V c 2 t) (iblk3 V c 3 t) (iblk3 V c 4 t) (accP3 V c (t.val - 1)) := by
  obtain ⟨n, hn⟩ := t
  cases n with
  | zero => exact absurd rfl ht
  | succ n => exact (dif_pos hn).trans rfl
theorem accC3_zero (c : Dev nD) (t : Fin cfg3.N) (ht : t.val = 0) :
    accC3 V c t.val = stepC3 (iblk3 V c 4 t) resC3 := by
  obtain ⟨n, hn⟩ := t
  obtain rfl : n = 0 := ht
  rfl
theorem accC3_pos (c : Dev nD) (t : Fin cfg3.N) (ht : t.val ≠ 0) :
    accC3 V c t.val = stepC3 (iblk3 V c 4 t) (accC3 V c (t.val - 1)) := by
  obtain ⟨n, hn⟩ := t
  cases n with
  | zero => exact absurd rfl ht
  | succ n => exact (dif_pos hn).trans rfl

abbrev scM3_0 : Memref sig .tc .vmem S128x256 .f32 := Memref.whole cc3_scratch0
abbrev scM3_1 : Memref sig .tc .vmem S1x256 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

def PhiS3 (c : Dev nD) (p : Vec F S128x256 .f32) (q : Vec F S1x256 .f32) : sProp 𝕄 :=
  iprop(iprop(iprop(owns (c : Thread nD τ) scM3_0 fullShare p ∗ owns (c : Thread nD τ) scM3_1 fullShare q) ∗ rest3 (F := F) c) ∗ (∃ r, prngReg c r))

def Phi3 (c : Dev nD) : ℕ → sProp 𝕄
  | 0 => Pipeline.ΦA spec3 c
  | n + 1 => PhiS3 c (accP3 V c n) (accC3 V c n)

theorem Phi3_pos (c : Dev nD) (n : ℕ) (hn : n ≠ 0) : Phi3 V c n = PhiS3 c (accP3 V c (n - 1)) (accC3 V c (n - 1)) := by
  cases n with
  | zero => exact absurd rfl hn
  | succ n => rfl

theorem zero3_2 : (![0, 0] : Fin 2 → ℕ) = fun _ => 0 := by funext a; fin_cases a <;> rfl

theorem cover3_p (p0 : Vec F S128x256 .f32) (L : List (View.Piece (Elt F) S128x256 .f32)) (y : S128x256.Idx) :
    ∃ pc ∈ ((⟨r3_p, p0⟩ : View.Piece (Elt F) S128x256 .f32) :: L), y ∈ pc.1.set :=
  ⟨_, List.mem_cons.mpr (Or.inl rfl), View.mem_set_unit_zero zero3_2 inb_S128x256_S128x256_0_0 y⟩

theorem canon3_p (p0 : Vec F S128x256 .f32) (L : List (View.Piece (Elt F) S128x256 .f32)) :
    View.canon ((⟨r3_p, p0⟩ : View.Piece (Elt F) S128x256 .f32) :: L) = p0 :=
  View.canon_cons_unit_zero zero3_2 inb_S128x256_S128x256_0_0 p0 L

theorem cover3_c (p0 : Vec F S1x256 .f32) (L : List (View.Piece (Elt F) S1x256 .f32)) (y : S1x256.Idx) :
    ∃ pc ∈ ((⟨r3_c, p0⟩ : View.Piece (Elt F) S1x256 .f32) :: L), y ∈ pc.1.set :=
  ⟨_, List.mem_cons.mpr (Or.inl rfl), View.mem_set_unit_zero zero3_2 inb_S1x256_S1x256_0_0 y⟩
theorem canon3_c (p0 : Vec F S1x256 .f32) (L : List (View.Piece (Elt F) S1x256 .f32)) :
    View.canon ((⟨r3_c, p0⟩ : View.Piece (Elt F) S1x256 .f32) :: L) = p0 :=
  View.canon_cons_unit_zero zero3_2 inb_S1x256_S1x256_0_0 p0 L

set_option maxHeartbeats 4000000 in

theorem sound_kernel3_A (c : Dev nD) (E : Set ℕ) (i : grid3.Coords) (hc0 : cond3_0 i) (hc1 : ¬cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (y5 : Vec F S128x256 .f32) (y6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare y5 ∗ owns (c : Thread nD τ) arg7 fullShare y6
            ∗ owns (c : Thread nD τ) arg8 fullShare (stepP3 x0 x1 x2 x3 x4 resP3)
            ∗ owns (c : Thread nD τ) arg9 fullShare (stepC3 x4 resC3)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap
  isplitl [H7]
  · iexists _; isplitr
    swap; · iexact H7
    ipureintro

    have hv28 : sound_kernel3_A.sl.v28 (F := F) c arg8 = View.ld (resP3 (F := F)) r3_p :=
      View.readCov_eq_canon_ld _ _ _ (cover3_p _ [])
    refine (View.read_writes_eq_canon _ _ _ (cover3_p _ _)).trans ?_
    refine (canon3_p _ _).trans ?_
    refine Eq.trans ?_ (canon3_p _ []).symm
    exact congrArg (k3_pay5 _ _ _ _ _) hv28
  iexists _; isplitr
  swap; · iexact H8
  ipureintro
  have hv34 : sound_kernel3_A.sl.v34 (F := F) c arg9 = View.ld (resC3 (F := F)) r3_c :=
    View.readCov_eq_canon_ld _ _ _ (cover3_c _ [])
  refine (View.read_writes_eq_canon _ _ _ (cover3_c _ _)).trans ?_
  refine (canon3_c _ _).trans ?_
  refine Eq.trans ?_ (canon3_c _ []).symm
  exact congrArg (fun s => k3_pay1 s _) hv34
  all_goals
    iexists _; isplitr; swap
    · iassumption
    ipureintro; rfl

set_option maxHeartbeats 4000000 in

theorem sound_kernel3_B (c : Dev nD) (E : Set ℕ) (i : grid3.Coords) (hc0 : ¬cond3_0 i) (hc1 : ¬cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (y5 : Vec F S128x256 .f32) (y6 : Vec F S1x256 .f32) (s0 : Vec F S128x256 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y5 ∗ owns (c : Thread nD τ) arg7 fullShare y6
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare y5 ∗ owns (c : Thread nD τ) arg7 fullShare y6
            ∗ owns (c : Thread nD τ) arg8 fullShare (stepP3 x0 x1 x2 x3 x4 s0)
            ∗ owns (c : Thread nD τ) arg9 fullShare (stepC3 x4 s1)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap
  isplitl [H7]
  · iexists _; isplitr
    swap; · iexact H7
    ipureintro
    exact View.read_writes_eq_canon _ _ _ (cover3_p _ _)
  iexists _; isplitr
  swap; · iexact H8
  ipureintro
  exact View.read_writes_eq_canon _ _ _ (cover3_c _ _)
  all_goals
    iexists _; isplitr; swap
    · iassumption
    ipureintro; rfl

set_option maxHeartbeats 4000000 in

theorem sound_kernel3_C (c : Dev nD) (E : Set ℕ) (i : grid3.Coords) (hc0 : ¬cond3_0 i) (hc1 : cond3_1 i)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x1 .i32) (harg5 : arg5.IsWhole) (arg6 : Memref sig .tc .vmem S128x256 .f32) (harg6 : arg6.IsWhole)
    (arg7 : Memref sig .tc .vmem S1x256 .f32) (harg7 : arg7.IsWhole) (arg8 : Memref sig .tc .vmem S128x256 .f32) (harg8 : arg8.IsWhole)
    (arg9 : Memref sig .tc .vmem S1x256 .f32) (harg9 : arg9.IsWhole)
    (x0 : Vec F S5000x128 .f32) (x1 : Vec F S5000x128 .bf16) (x2 : Vec F S5000x1 .f32) (x3 : Vec F S128 .f32) (x4 : Vec F S5000x1 .i32)
    (s0 : Vec F S128x256 .f32) (s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stepP3 x0 x1 x2 x3 x4 s0) ∗ owns (c : Thread nD τ) arg7 fullShare (stepC3 x4 s1)
            ∗ owns (c : Thread nD τ) arg8 fullShare (stepP3 x0 x1 x2 x3 x4 s0)
            ∗ owns (c : Thread nD τ) arg9 fullShare (stepC3 x4 s1)) -∗ K ⟨⟩))
      ⊢ wp frame (wpE (defs₀ (F := F)) Variants.none c none) E
          (cc3__finalize_pool_kernel i arg1 harg1 arg2 harg2 arg3 harg3 arg4 harg4 arg5 harg5 arg6 harg6 arg7 harg7 arg8 harg8 arg9 harg9) K := by
  simp only [cc3__finalize_pool_kernel_eq_skeleton]; unfold cc3__finalize_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hc0 | exact hc1)
  sl_step
  iapply Hk
  isplitl [H0]; swap; isplitl [H1]; swap; isplitl [H2]; swap; isplitl [H3]; swap; isplitl [H4]; swap
  isplitl [H5]
  · iexists _; isplitr
    swap; · iexact H5
    ipureintro

    exact (View.read_writes_eq_canon _ _ _ (cover3_p _ _)).trans ((canon3_p _ _).trans
      ((View.readCov_unit_zero _ zero3_2 _ _).trans (canon3_p _ []).symm))
  isplitl [H6]
  · iexists _; isplitr
    swap; · iexact H6
    ipureintro
    exact (View.read_writes_eq_canon _ _ _ (cover3_c _ _)).trans ((canon3_c _ _).trans
      ((View.readCov_unit_zero _ zero3_2 _ _).trans (canon3_c _ []).symm))
  isplitl [H7]
  · iexists _; isplitr
    swap; · iexact H7
    ipureintro
    exact View.read_writes_eq_canon _ _ _ (cover3_p _ _)
  iexists _; isplitr
  swap; · iexact H8
  ipureintro
  exact View.read_writes_eq_canon _ _ _ (cover3_c _ _)
  all_goals
    iexists _; isplitr; swap
    · iassumption
    ipureintro; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => accP3 V c t.val
    | ⟨6, _⟩ => accC3 V c t.val
  Φ t := Phi3 V c t.val
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = accP3 V c t.val := by dsimp only [dat3]
theorem after3_6 (c : Dev nD) (t : Fin cfg3.N) : (dat3 V c).after 6 t = accC3 V c t.val := by dsimp only [dat3]

theorem in3_of (c : Dev nD) (t : Fin cfg3.N) : ∀ w : Fin cfg3.W, w.val < 5 → (∀ d, (dat3 V c).before w t d = (dat3 V c).after w t) ∧
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ =>
    ⟨(dat3 V c).before_in_eq_fetched _ rfl (fun _ => rfl) (fun _ _ _ => rfl) (fun _ => rfl) t, rfl⟩
  | ⟨_ + 5, _⟩, h => absurd h (Nat.not_lt.2 (Nat.le_add_left _ _))

theorem Phi3_zero (c : Dev nD) : (dat3 V c).Φ 0 = Pipeline.ΦA spec3 c := rfl

theorem Phi3_last_out (c : Dev nD) : (dat3 V c).Φ (Fin.last cfg3.N) ⊢ Pipeline.ΦA spec3 c := by
  rw [show (dat3 V c).Φ (Fin.last cfg3.N) = Phi3 V c (Fin.last cfg3.N).val from rfl,
    Phi3_pos V c _ (by rw [Fin.val_last]; have : cfg3.N = 10 := N_3; omega), PhiA3_eq, PhiS3]
  iintro ⟨⟨⟨HS0, HS1⟩, HR⟩, Hg⟩
  iframe HR Hg
  isplitl [HS0] <;> iexists _ <;> iassumption

set_option maxHeartbeats 4000000 in
theorem body_obligation3 (c : Dev nD) : BodyObligation (dat3 (F := F) V c) (defs₀ (F := F)) Variants.none () Set.univ := fun t => by
  show iprop(Phi3 V c t.val ∗ _) ⊢ wp frame _ _ (bodyAt3 t) fun _ => iprop(PhiS3 c (accP3 V c t.val) (accC3 V c t.val)
      ∗ (dat3 V c).owesAt () t.castSucc ∗ bigSep Finset.univ fun w => (dat3 V c).leavesExact w t)
  rw [bigSep_W3, bigSep_W3]
  simp (disch := decide) only [in3_of V c t]
  have hN : t.val < 10 := lt_of_lt_of_eq t.isLt (show cfg3.N = 10 from N_3)
  have c0 := hcond3_0 t
  have c1 := hcond3_1 t
  rw [Nat.mod_eq_of_lt hN] at c0 c1
  by_cases h1 : t.val = 9
  · have hz : t.val ≠ 0 := by omega
    obtain ⟨l5, l6⟩ := liveAt3 t (c1.mpr h1)
    rw [show (dat3 V c).leavesExact 5 t = owns (c : Thread nD τ) (st3_5 t) fullShare ((dat3 V c).after 5 t) from by
        unfold Dat.leavesExact; rw [l5], after3_5,
      show (dat3 V c).leavesExact 6 t = owns (c : Thread nD τ) (st3_6 t) fullShare ((dat3 V c).after 6 t) from by
        unfold Dat.leavesExact; rw [l6], after3_6,
      accP3_pos V c t hz, accC3_pos V c t hz, Phi3_pos V c t.val hz, PhiS3, PhiS3]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_C c Set.univ (grid3.coords t) (fun h => hz (c0.mp h)) (c1.mpr h1) _ _ _ _ _ _ _ _ _ _ _ _ _ _ _ _ _ _ _ _ _ _ _ _ _ _)
    iframe H0 H1 H2 H3 H4 HS0 HS1
    isplitl [H5]; · iexists _; iexact H5
    isplitl [H6]; · iexists _; iexact H6
    iintro ⟨H0, H1, H2, H3, H4, H5, H6, HS0, HS1⟩
    iframe HR Hg Ho H0 H1 H2 H3 H4
    isplitl [HS0 HS1]
    · isplitl [HS0]; · iexact HS0
      iexact HS1
    isplitl [H5]; · iexact H5
    iexact H6
  · have hc1 : ¬cond3_1 (grid3.coords t) := fun h => h1 (c1.mp h)
    obtain ⟨⟨i5, f5⟩, i6, f6⟩ := idleAt3 t hc1
    rw [Dat.leavesExact_idle _ 5 t i5 f5, Dat.leavesExact_idle _ 6 t i6 f6]
    by_cases h0 : t.val = 0
    · rw [accP3_zero V c t h0, accC3_zero V c t h0, show Phi3 V c t.val = Pipeline.ΦA spec3 c from by rw [h0]; rfl, PhiA3_eq, PhiS3]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) (c0.mpr h0) hc1 _ _ _ _ _ _ _ _ _ _ _ _ _ _ _ _ _ _ _ _ _ _ _ _ _ _)
      iframe H0 H1 H2 H3 H4 H5 H6 HS0 HS1
      iintro ⟨H0, H1, H2, H3, H4, H5, H6, HS0, HS1⟩
      iframe HR Hg Ho H0 H1 H2 H3 H4
      isplitl [HS0 HS1]
      · isplitl [HS0]; · iexact HS0
        iexact HS1
      isplitl [H5] <;> iexists _ <;> iassumption
    · rw [accP3_pos V c t h0, accC3_pos V c t h0, Phi3_pos V c t.val h0, PhiS3, PhiS3]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) (fun h => h0 (c0.mp h)) hc1 _ _ _ _ _ _ _ _ _ _ _ _ _ _ _ _ _ _ _ _ _ _ _ _ _ _ _ _)
      iframe H0 H1 H2 H3 H4 H5 H6 HS0 HS1
      iintro ⟨H0, H1, H2, H3, H4, H5, H6, HS0, HS1⟩
      iframe HR Hg Ho H0 H1 H2 H3 H4
      isplitl [HS0 HS1]
      · isplitl [HS0]; · iexact HS0
        iexact HS1
      isplitl [H5] <;> iexists _ <;> iassumption

end Cert.KernelIdeal.Gen

end
-- ==== Proof.KI.Reg4.lean ====
import proofs.«430777_j3556232921556_3_alg».proof.Proof.KI.LaunchP
import proofs.«430777_j3556232921556_3_alg».proof.Proof.Gen.KernelIdeal.Skeleton
import proofs.«430777_j3556232921556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_p : Rect S128x256 := Rect.unit (s := S128x256) ![0, 0] S128x256.size inb_S128x256_S128x256_0_0
abbrev r4_c : Rect S1x256 := Rect.unit (s := S1x256) ![0, 0] S1x256.size inb_S1x256_S1x256_0_0
abbrev r4_b1 : Rect S256 := Rect.unit (s := S256) ![0] S256.size inb_S256_S256_0
abbrev r4_o : Rect S256x768 := Rect.unit (s := S256x768) ![0, 0] S256x768.size inb_S256x768_S256x768_0_0
abbrev r4_b2 : Rect S768 := Rect.unit (s := S768) ![0] S768.size inb_S768_S768_0

def out4_6 (x0 : Vec F S128x256 .f32) (x1 : Vec F S1x256 .f32) (x2 : Vec F S128x256 .f32) (x3 : Vec F S256 .f32)
    (x4 : Vec F S256x768 .f32) (x5 : Vec F S768 .f32) : Vec F S256x768 .f32 :=
  View.canon [⟨r4_o, k4_pay1 (View.ld x1 r4_c) (View.ld x0 r4_p) (View.ld x2 r4_p) (View.ld x3 r4_b1) (View.ld x4 r4_o) (View.ld x5 r4_b2)⟩]

set_option maxHeartbeats 4000000 in

theorem sound_kernel4 (c : Dev nD) (E : Set ℕ) (i : grid4.Coords)
    (arg1 : Memref sig .tc .vmem S128x256 .f32) (harg1 : arg1.IsWhole) (arg2 : Memref sig .tc .vmem S1x256 .f32) (harg2 : arg2.IsWhole)
    (arg3 : Memref sig .tc .vmem S128x256 .f32) (harg3 : arg3.IsWhole) (arg4 : Memref sig .tc .vmem S256 .f32) (harg4 : arg4.IsWhole)
    (arg5 : Memref sig .tc .vmem S256x768 .f32) (harg5 : arg5.IsWhole) (arg6 : Memref sig .tc .vmem S768 .f32) (harg6 : arg6.IsWhole)
    (arg7 : Memref sig .tc .vmem S256x768 .f32) (harg7 : arg7.IsWhole)
    (x0 : Vec F S128x256 .f32) (x1 : Vec F S1x256 .f32) (x2 : Vec F S128x256 .f32) (x3 : Vec F S256 .f32) (x4 : Vec F S256x768 .f32)
    (x5 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; swap; isplitl [H1]; swap; isplitl [H2]; swap; isplitl [H3]; swap; isplitl [H4]; swap; isplitl [H5]; swap
  iexists _; isplitr
  swap; · iexact H6
  ipureintro
  exact View.read_writes_eq_canon _ _ _ (View.cover_of_tiled _ S256x768.size (by rfl))
  all_goals
    iexists _; isplitr; swap
    · iassumption
    ipureintro; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := rfl

theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_of (c : Dev nD) (t : Fin cfg4.N) : ∀ w : Fin cfg4.W, w.val < 6 → ∀ d, (dat4 V c).before w t d = (dat4 V c).after w t
  | ⟨0, _⟩, _, d | ⟨1, _⟩, _, d | ⟨2, _⟩, _, d | ⟨3, _⟩, _, d | ⟨4, _⟩, _, d | ⟨5, _⟩, _, d =>
    (dat4 V c).before_in_eq_fetched _ rfl (fun _ => rfl) (fun _ _ _ => rfl) (fun _ => rfl) t d
  | ⟨_ + 6, _⟩, h, _ => absurd h (Nat.not_lt.2 (Nat.le_add_left _ _))

theorem body_obligation4 (c : Dev nD) : BodyObligation (dat4 (F := F) V c) (defs₀ (F := F)) Variants.none () Set.univ := fun t => by
  show _ ⊢ wp frame _ _ (bodyAt4 t) fun _ => iprop((dat4 V c).Φ t.castSucc ∗ (dat4 V c).owesAt () t.castSucc
      ∗ bigSep Finset.univ fun w => owns _ _ _ ((dat4 V c).after w t))
  rw [bigSep_W4, bigSep_W4]
  simp (disch := decide) only [before4_of V c t, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe HΦ Ho H0 H1 H2 H3 H4 H5
  iexact H6

end Cert.KernelIdeal.Gen

end
-- ==== Proof.KI.Fold.lean ====
import proofs.«430777_j3556232921556_3_alg».proof.Proof.KI.RegionsP
import proofs.«430777_j3556232921556_3_alg».proof.Proof.KI.Reg0
import proofs.«430777_j3556232921556_3_alg».proof.Proof.KI.Reg1
import proofs.«430777_j3556232921556_3_alg».proof.Proof.KI.Reg2
import proofs.«430777_j3556232921556_3_alg».proof.Proof.KI.Reg3
import proofs.«430777_j3556232921556_3_alg».proof.Proof.KI.Reg4

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The contents of a core's buffers at each boundary: a host stretch acts on them, a region replaces its output arrays by its results. -/
abbrev X1 (c : Dev nD) : Valuation τ sig (Elt F) := V1 m c

def o2 (c : Dev nD) : Buf (Elt F) ((c : Thread nD τ).loc main_v13) := (dat0 (fun c b => X1 m c b) c).arrAt 3 cfg0.N

def X2 (c : Dev nD) : Valuation τ sig (Elt F) := Function.update (X1 m c) (Proc.devRef .tc main_v13) (o2 m c)

abbrev X3 (c : Dev nD) : Valuation τ sig (Elt F) := StableHlo.after hostOps1 (X2 m c)

def o4 (c : Dev nD) : Buf (Elt F) ((c : Thread nD τ).loc main_v25) := (dat1 (fun c b => X3 m c b) c).arrAt 5 cfg1.N

def X4 (c : Dev nD) : Valuation τ sig (Elt F) := Function.update (X3 m c) (Proc.devRef .tc main_v25) (o4 m c)

abbrev X5 (c : Dev nD) : Valuation τ sig (Elt F) := StableHlo.after hostOps2 (X4 m c)

def o6 (c : Dev nD) : Buf (Elt F) ((c : Thread nD τ).loc main_v37) := (dat2 (fun c b => X5 m c b) c).arrAt 5 cfg2.N

def X6 (c : Dev nD) : Valuation τ sig (Elt F) := Function.update (X5 m c) (Proc.devRef .tc main_v37) (o6 m c)

abbrev X7 (c : Dev nD) : Valuation τ sig (Elt F) := StableHlo.after hostOps3 (X6 m c)

def o8a (c : Dev nD) : Buf (Elt F) ((c : Thread nD τ).loc main_v49_0) := (dat3 (fun c b => X7 m c b) c).arrAt 5 cfg3.N
def o8b (c : Dev nD) : Buf (Elt F) ((c : Thread nD τ).loc main_v49_1) := (dat3 (fun c b => X7 m c b) c).arrAt 6 cfg3.N

def X8 (c : Dev nD) : Valuation τ sig (Elt F) :=
  Function.update (Function.update (X7 m c) (Proc.devRef .tc main_v49_0) (o8a m c)) (Proc.devRef .tc main_v49_1) (o8b m c)

def o9 (c : Dev nD) : Buf (Elt F) ((c : Thread nD τ).loc main_v50) := (dat4 (fun c b => X8 m c b) c).arrAt 6 cfg4.N

def X9 (c : Dev nD) : Valuation τ sig (Elt F) := Function.update (X8 m c) (Proc.devRef .tc main_v50) (o9 m c)

theorem X2_out (c : Dev nD) : X2 m c (Proc.devRef .tc main_v13) = o2 m c := by
  unfold X2; exact Function.update_self _ _ _
theorem X2_of_ne (c : Dev nD) (b : Ref sig .tc) (h : b ≠ main_v13) : X2 m c (Proc.devRef .tc b) = X1 m c (Proc.devRef .tc b) := by
  unfold X2; exact Function.update_of_ne (StableHlo.devRef_ne_of_ne h) _ _
theorem X4_out (c : Dev nD) : X4 m c (Proc.devRef .tc main_v25) = o4 m c := by
  unfold X4; exact Function.update_self _ _ _
theorem X4_of_ne (c : Dev nD) (b : Ref sig .tc) (h : b ≠ main_v25) : X4 m c (Proc.devRef .tc b) = X3 m c (Proc.devRef .tc b) := by
  unfold X4; exact Function.update_of_ne (StableHlo.devRef_ne_of_ne h) _ _
theorem X6_out (c : Dev nD) : X6 m c (Proc.devRef .tc main_v37) = o6 m c := by
  unfold X6; exact Function.update_self _ _ _
theorem X6_of_ne (c : Dev nD) (b : Ref sig .tc) (h : b ≠ main_v37) : X6 m c (Proc.devRef .tc b) = X5 m c (Proc.devRef .tc b) := by
  unfold X6; exact Function.update_of_ne (StableHlo.devRef_ne_of_ne h) _ _
theorem X8_out_b (c : Dev nD) : X8 m c (Proc.devRef .tc main_v49_1) = o8b m c := by
  unfold X8; exact Function.update_self _ _ _
theorem X8_out_a (c : Dev nD) : X8 m c (Proc.devRef .tc main_v49_0) = o8a m c := by
  unfold X8
  rw [Function.update_of_ne (StableHlo.devRef_ne_of_ne (by decide : main_v49_0 ≠ main_v49_1))]
  exact Function.update_self _ _ _
theorem X8_of_ne (c : Dev nD) (b : Ref sig .tc) (h0 : b ≠ main_v49_0) (h1 : b ≠ main_v49_1) :
    X8 m c (Proc.devRef .tc b) = X7 m c (Proc.devRef .tc b) := by
  unfold X8
  rw [Function.update_of_ne (StableHlo.devRef_ne_of_ne h1), Function.update_of_ne (StableHlo.devRef_ne_of_ne h0)]
theorem X9_out (c : Dev nD) : X9 m c (Proc.devRef .tc main_v50) = o9 m c := by
  unfold X9; exact Function.update_self _ _ _
theorem X9_of_ne (c : Dev nD) (b : Ref sig .tc) (h : b ≠ main_v50) : X9 m c (Proc.devRef .tc b) = X8 m c (Proc.devRef .tc b) := by
  unfold X9; exact Function.update_of_ne (StableHlo.devRef_ne_of_ne h) _ _

def outsX : Outs (F := F) := fun J r c =>
  match J with
  | 2 => X2 m c (Proc.devRef .tc r)
  | 4 => X4 m c (Proc.devRef .tc r)
  | 6 => X6 m c (Proc.devRef .tc r)
  | 8 => X8 m c (Proc.devRef .tc r)
  | _ => X9 m c (Proc.devRef .tc r)

theorem V2_eq (c : Dev nD) : V2 m (outsX m) c = X2 m c := by
  show Function.update (V1 m c) (Proc.devRef .tc main_v13) (X2 m c (Proc.devRef .tc main_v13)) = X2 m c
  rw [X2_out]; rfl
theorem V3_eq (c : Dev nD) : V3 m (outsX m) c = X3 m c := by
  show StableHlo.after hostOps1 (V2 m (outsX m) c) = X3 m c
  rw [V2_eq]
theorem V4_eq (c : Dev nD) : V4 m (outsX m) c = X4 m c := by
  show Function.update (V3 m (outsX m) c) (Proc.devRef .tc main_v25) (X4 m c (Proc.devRef .tc main_v25)) = X4 m c
  rw [V3_eq, X4_out]; rfl
theorem V5_eq (c : Dev nD) : V5 m (outsX m) c = X5 m c := by
  show StableHlo.after hostOps2 (V4 m (outsX m) c) = X5 m c
  rw [V4_eq]
theorem V6_eq (c : Dev nD) : V6 m (outsX m) c = X6 m c := by
  show Function.update (V5 m (outsX m) c) (Proc.devRef .tc main_v37) (X6 m c (Proc.devRef .tc main_v37)) = X6 m c
  rw [V5_eq, X6_out]; rfl
theorem V7_eq (c : Dev nD) : V7 m (outsX m) c = X7 m c := by
  show StableHlo.after hostOps3 (V6 m (outsX m) c) = X7 m c
  rw [V6_eq]
theorem V8_eq (c : Dev nD) : V8 m (outsX m) c = X8 m c := by
  show Function.update (Function.update (V7 m (outsX m) c) (Proc.devRef .tc main_v49_0) (X8 m c (Proc.devRef .tc main_v49_0)))
      (Proc.devRef .tc main_v49_1) (X8 m c (Proc.devRef .tc main_v49_1)) = X8 m c
  rw [V7_eq, X8_out_a, X8_out_b]; rfl
theorem V9_eq (c : Dev nD) : V9 m (outsX m) c = X9 m c := by
  show Function.update (V8 m (outsX m) c) (Proc.devRef .tc main_v50) (X9 m c (Proc.devRef .tc main_v50)) = X9 m c
  rw [V8_eq, X9_out]; rfl

def pdats : (p : Fin 5) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) c
  | ⟨4, _⟩ => fun c => dat4 (fun c b => X8 m c b) c

end Cert.KernelIdeal.Gen

end
-- ==== Proof.KI.Segs.lean ====
import proofs.«430777_j3556232921556_3_alg».proof.Proof.KI.Fold
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E1 (c : Dev nD) : (b : Ref sig .tc) → Buf (Elt F) ((c : Thread nD τ).loc b) := fun b => X1 m c b
abbrev E2 (c : Dev nD) : (b : Ref sig .tc) → Buf (Elt F) ((c : Thread nD τ).loc b) := fun b => X2 m c b
abbrev E3 (c : Dev nD) : (b : Ref sig .tc) → Buf (Elt F) ((c : Thread nD τ).loc b) := fun b => X3 m c b
abbrev E4 (c : Dev nD) : (b : Ref sig .tc) → Buf (Elt F) ((c : Thread nD τ).loc b) := fun b => X4 m c b
abbrev E5 (c : Dev nD) : (b : Ref sig .tc) → Buf (Elt F) ((c : Thread nD τ).loc b) := fun b => X5 m c b
abbrev E6 (c : Dev nD) : (b : Ref sig .tc) → Buf (Elt F) ((c : Thread nD τ).loc b) := fun b => X6 m c b
abbrev E7 (c : Dev nD) : (b : Ref sig .tc) → Buf (Elt F) ((c : Thread nD τ).loc b) := fun b => X7 m c b
abbrev E8 (c : Dev nD) : (b : Ref sig .tc) → Buf (Elt F) ((c : Thread nD τ).loc b) := fun b => X8 m c b
abbrev E9 (c : Dev nD) : (b : Ref sig .tc) → Buf (Elt F) ((c : Thread nD τ).loc b) := fun b => X9 m c b

/-- After the last point an input array is as the region found it and an output array holds the region's result: the exit contents, window by window. -/
theorem hF0 (c : Dev nD) : ∀ w : Fin cfg0.W, (dat0 (fun c b => X1 m c b) c).arrAt w cfg0.N = E2 m c (Pipeline.arrRef spec0 w)
  | ⟨3, _⟩ => (X2_out m c).symm
  | ⟨0, _⟩ | ⟨1, _⟩ | ⟨2, _⟩ =>
    ((dat0 (fun c b => X1 m c b) c).arrAt_in _ rfl _).trans ((A_eq0 (fun c b => X1 m c b) c _).trans (X2_of_ne m c _ (by decide +revert)).symm)
theorem hrest0 (c : Dev nD) : ∀ b, b ∉ Finset.univ.image (Pipeline.arrRef spec0) → E2 m c b = E1 m c b :=
  fun b hb => X2_of_ne m c b (fun e => hb (Finset.mem_image.mpr ⟨3, Finset.mem_univ _, e.symm⟩))

theorem hF1 (c : Dev nD) : ∀ w : Fin cfg1.W, (dat1 (fun c b => X3 m c b) c).arrAt w cfg1.N = E4 m c (Pipeline.arrRef spec1 w)
  | ⟨5, _⟩ => (X4_out m c).symm
  | ⟨0, _⟩ | ⟨1, _⟩ | ⟨2, _⟩ | ⟨3, _⟩ | ⟨4, _⟩ =>
    ((dat1 (fun c b => X3 m c b) c).arrAt_in _ rfl _).trans ((A_eq1 (fun c b => X3 m c b) c _).trans (X4_of_ne m c _ (by decide +revert)).symm)
theorem hrest1 (c : Dev nD) : ∀ b, b ∉ Finset.univ.image (Pipeline.arrRef spec1) → E4 m c b = E3 m c b :=
  fun b hb => X4_of_ne m c b (fun e => hb (Finset.mem_image.mpr ⟨5, Finset.mem_univ _, e.symm⟩))

theorem hF2 (c : Dev nD) : ∀ w : Fin cfg2.W, (dat2 (fun c b => X5 m c b) c).arrAt w cfg2.N = E6 m c (Pipeline.arrRef spec2 w)
  | ⟨5, _⟩ => (X6_out m c).symm
  | ⟨0, _⟩ | ⟨1, _⟩ | ⟨2, _⟩ | ⟨3, _⟩ | ⟨4, _⟩ =>
    ((dat2 (fun c b => X5 m c b) c).arrAt_in _ rfl _).trans ((A_eq2 (fun c b => X5 m c b) c _).trans (X6_of_ne m c _ (by decide +revert)).symm)
theorem hrest2 (c : Dev nD) : ∀ b, b ∉ Finset.univ.image (Pipeline.arrRef spec2) → E6 m c b = E5 m c b :=
  fun b hb => X6_of_ne m c b (fun e => hb (Finset.mem_image.mpr ⟨5, Finset.mem_univ _, e.symm⟩))

theorem hF3 (c : Dev nD) : ∀ w : Fin cfg3.W, (dat3 (fun c b => X7 m c b) c).arrAt w cfg3.N = E8 m c (Pipeline.arrRef spec3 w)
  | ⟨5, _⟩ => (X8_out_a m c).symm
  | ⟨6, _⟩ => (X8_out_b m c).symm
  | ⟨0, _⟩ | ⟨1, _⟩ | ⟨2, _⟩ | ⟨3, _⟩ | ⟨4, _⟩ =>
    ((dat3 (fun c b => X7 m c b) c).arrAt_in _ rfl _).trans ((A_eq3 (fun c b => X7 m c b) c _).trans (X8_of_ne m c _ (by decide +revert) (by decide +revert)).symm)
theorem hrest3 (c : Dev nD) : ∀ b, b ∉ Finset.univ.image (Pipeline.arrRef spec3) → E8 m c b = E7 m c b :=
  fun b hb => X8_of_ne m c b (fun e => hb (Finset.mem_image.mpr ⟨5, Finset.mem_univ _, e.symm⟩)) (fun e => hb (Finset.mem_image.mpr ⟨6, Finset.mem_univ _, e.symm⟩))

theorem hF4 (c : Dev nD) : ∀ w : Fin cfg4.W, (dat4 (fun c b => X8 m c b) c).arrAt w cfg4.N = E9 m c (Pipeline.arrRef spec4 w)
  | ⟨6, _⟩ => (X9_out m c).symm
  | ⟨0, _⟩ | ⟨1, _⟩ | ⟨2, _⟩ | ⟨3, _⟩ | ⟨4, _⟩ | ⟨5, _⟩ =>
    ((dat4 (fun c b => X8 m c b) c).arrAt_in _ rfl _).trans ((A_eq4 (fun c b => X8 m c b) c _).trans (X9_of_ne m c _ (by decide +revert)).symm)
theorem hrest4 (c : Dev nD) : ∀ b, b ∉ Finset.univ.image (Pipeline.arrRef spec4) → E9 m c b = E8 m c b :=
  fun b hb => X9_of_ne m c b (fun e => hb (Finset.mem_image.mpr ⟨6, Finset.mem_univ _, e.symm⟩))

abbrev Eof (X : Dev nD → Valuation τ sig (Elt F)) (c : Dev nD) : (b : Ref sig .tc) → Buf (Elt F) ((c : Thread nD τ).loc b) :=
  fun b => X c b

set_option backward.isDefEq.respectTransparency.types false

/-- A region over the thread state: its arrays are split out of the unscoped buffers at entry and put back at the exit contents. -/
def regOf (p : Fin 5) (lf : Pipeline.LaunchFacts (nD := nD) (τ := τ) cfgs p) (Xi Xo Vi Vo : Dev nD → Valuation τ sig (Elt F))
    (hb : ∀ c, BodyObligation (pdats m p c) (defs₀ (F := F)) 𝒱₀ () Set.univ)
    (howed : ∀ c t, (pdats m p c).owed t = 0) (hrec : ∀ c x, x ∈ (pdats m p c).recorded 0) (hq : ∀ c w, (pdats m p c).q w = fullShare)
    (hVi : ∀ c, Vi c = Xi c) (hVo : ∀ c, Vo c = Xo c)
    (hA : ∀ c w, (pdats m p c).A w = Eof Xi c (Pipeline.arrRef (cfgs p).spec w))
    (hΦ0 : ∀ c, (pdats m p c).Φ 0 = Pipeline.ΦA (cfgs p).spec c)
    (hΦN : ∀ c, (pdats m p c).Φ (Fin.last _) ⊢ Pipeline.ΦA (cfgs p).spec c)
    (hF : ∀ c w, (pdats m p c).arrAt w (cfgs p).N = Eof Xo c (Pipeline.arrRef (cfgs p).spec w))
    (hrest : ∀ c b, b ∉ Finset.univ.image (Pipeline.arrRef (cfgs p).spec) → Eof Xo c b = Eof Xi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (Eof Xi c)
  hentry c := by
    rw [Pipeline.ownSems0_none, hVi c]
    unfold Pipeline.Dat.owesAt
    rw [howed c]
    have hsplit := Pipeline.arrays_of_unscopedBufs (p := p) (pcfgs (F := F)) adm (pdats m) lf.win lf.arr_whole c
      ((pdats m p c).share_full (hq c)) (Eof Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    rw [hVo c]
    unfold Pipeline.Dat.owesAt
    rw [howed c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Eof Xi c) (Eof Xo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := regOf m 0 launch0 (X1 m) (X2 m) (V1 m) (V2 m (outsX m)) (body_obligation0 fun c b => X1 m c b) (fun _ _ => rfl) (fun _ _ => trivial) (fun _ _ => rfl)
  (fun _ => rfl) (V2_eq m) (fun _ _ => rfl) (fun _ => rfl) (fun _ => .rfl) (hF0 m) (hrest0 m)
def reg1 := regOf m 1 launch1 (X3 m) (X4 m) (V3 m (outsX m)) (V4 m (outsX m)) (body_obligation1 fun c b => X3 m c b) (fun _ _ => rfl) (fun _ _ => trivial) (fun _ _ => rfl)
  (V3_eq m) (V4_eq m) (fun _ _ => rfl) (fun _ => rfl) (fun _ => .rfl) (hF1 m) (hrest1 m)
def reg2 := regOf m 2 launch2 (X5 m) (X6 m) (V5 m (outsX m)) (V6 m (outsX m)) (body_obligation2 fun c b => X5 m c b) (fun _ _ => rfl) (fun _ _ => trivial) (fun _ _ => rfl)
  (V5_eq m) (V6_eq m) (fun _ _ => rfl) (fun _ => rfl) (fun _ => .rfl) (hF2 m) (hrest2 m)
def reg3 := regOf m 3 launch3 (X7 m) (X8 m) (V7 m (outsX m)) (V8 m (outsX m)) (body_obligation3 fun c b => X7 m c b) (fun _ _ => rfl) (fun _ _ => trivial) (fun _ _ => rfl)
  (V7_eq m) (V8_eq m) (fun _ _ => rfl) (Phi3_zero fun c b => X7 m c b) (Phi3_last_out fun c b => X7 m c b) (hF3 m) (hrest3 m)
def reg4 := regOf m 4 launch4 (X8 m) (X9 m) (V8 m (outsX m)) (V9 m (outsX m)) (body_obligation4 fun c b => X8 m c b) (fun _ _ => rfl) (fun _ _ => trivial) (fun _ _ => rfl)
  (V8_eq m) (V9_eq m) (fun _ _ => rfl) (fun _ => rfl) (fun _ => .rfl) (hF4 m) (hrest4 m)

end Cert.KernelIdeal.Gen

end
-- ==== Proof.KI.Run.lean ====
import proofs.«430777_j3556232921556_3_alg».proof.Proof.KI.Segs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_step (c : Dev nD) :
    (iprop(StableHlo.held (c : Thread nD τ) (Pipeline.ucRefs τ sig) (V9 m (outsX m) c) ∗ R c) : sProp 𝕄)
      ⊢ iprop(iprop(StableHlo.held (c : Thread nD τ) (Pipeline.ucRefs τ sig) (X9 m c) ∗ ∃ r, prngReg c r)
          ∗ ∃ W, owes (c : Thread nD τ) (0 : CellTallies nD τ sig Unit) W) := by
  rw [V9_eq]
  iintro ⟨Hh, Hp, HO⟩
  isplitl [Hh Hp]
  · isplitl [Hh]; · iexact Hh
    iexact Hp
  iexact HO

set_option backward.isDefEq.respectTransparency.types false in

/-- The nine items in order, each entered from the thread state the one before it left: every execution ends with each unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X9 m c b) :=
  Pipeline.θ_run_regions_kit_dev (pcfgs (F := F)) adm (pdats m) () cellOf_inj emb₁ defs₀ 𝒱₀ L lv m ρ main
    (segs m (outsX m) 𝒱₀ L lv (fun _ => R) () (pdats m) (reg0 m) (reg1 m) (reg2 m) (reg3 m) (reg4 m))
    (fun c Q => by
      rewrite [main_chain c, Seg.run_eq_chain,
        show ((segs m (outsX m) 𝒱₀ L lv (fun _ => R) () (pdats m) (reg0 m) (reg1 m) (reg2 m) (reg3 m) (reg4 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X9 m c) ∗ ∃ r, prngReg c r))
    (hch := fun c => ⟨.rfl, .rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X9 m c b)
    (hfin := fun c s' => by
      iintro ⟨⟨Hh, -⟩, HSI⟩
      unfold StableHlo.held
      imodintro
      iapply (pointsTo_read_all (Pipeline.ucRefs τ sig) (fun b => (((c : Thread nD τ)).1, b)) (X9 m c) s')
      isplitl [Hh] <;> iassumption)
    (hQ := fun s h => h)

abbrev args : List (Ref sig .tc) :=
  [main_arg0, main_arg1, main_arg2, main_arg3, main_arg4, main_arg5, main_arg6, main_arg7, main_arg8, main_arg9, main_arg10, main_arg11, main_arg12]

/-- The argument buffers are unscoped and apart from every buffer an item of the program writes. -/
theorem args_apart : ∀ a ∈ args, ¬ (Proc.devRef .tc a : DevRef τ sig).isScoped ∧ a ∉ hostOps0_W ∧ a ∉ ([main_v13] : List (Ref sig .tc))
    ∧ a ∉ hostOps1_W ∧ a ∉ ([main_v25] : List (Ref sig .tc)) ∧ a ∉ hostOps2_W ∧ a ∉ ([main_v37] : List (Ref sig .tc)) ∧ a ∉ hostOps3_W
    ∧ a ∉ ([main_v49_0, main_v49_1] : List (Ref sig .tc)) ∧ a ∉ ([main_v50] : List (Ref sig .tc)) := by decide

theorem read_arg (s : MemSt nD τ sig (Elt F)) (h : ∀ c : Dev nD, ∀ b ∈ Pipeline.ucRefs τ sig, s.mem ((c : Thread nD τ).1, b) = X9 m c b)
    (c : Dev nD) (a : Ref sig .tc) (ha : a ∈ args) : s.mem ((c.tc : Thread nD τ).loc a) = m ((c.tc : Thread nD τ).loc a) :=
  have ⟨hs, h1, h2, h3, h4, h5, h6, h7, h8, h9⟩ := args_apart a ha
  (h c _ (mem_uc a hs)).trans ((congrFun (V9_eq m c) (Proc.devRef .tc a)).symm.trans (V9_keep m (outsX m) c a h1 h2 h3 h4 h5 h6 h7 h8 h9))

abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

/-- The result buffer ends at what the last region leaves in it, and every argument as launched. -/
theorem run_value : θ_run defs (onTc (τ := τ) (main (F := F))) ⟨m, fun _ => 0, ρ⟩ (fun r => ∀ c : Dev nD,
      r.2.mem ((c.tc : Thread nD τ).loc main_v50) = o9 m c ∧ ArgsKept m r.2 c) :=
  (θ_run defs _ _).mono (fun r h c =>
    ⟨(h c _ (mem_uc main_v50 (by decide))).trans (X9_out m c),
      read_arg m r.2 h c main_arg0 (by decide),
      read_arg m r.2 h c main_arg1 (by decide),
      read_arg m r.2 h c main_arg2 (by decide),
      read_arg m r.2 h c main_arg3 (by decide),
      read_arg m r.2 h c main_arg4 (by decide),
      read_arg m r.2 h c main_arg5 (by decide),
      read_arg m r.2 h c main_arg6 (by decide),
      read_arg m r.2 h c main_arg7 (by decide),
      read_arg m r.2 h c main_arg8 (by decide),
      read_arg m r.2 h c main_arg9 (by decide),
      read_arg m r.2 h c main_arg10 (by decide),
      read_arg m r.2 h c main_arg11 (by decide),
      read_arg m r.2 h c main_arg12 (by decide)⟩) (run_all m ρ)

theorem frame : θ_run defs (onTc (τ := τ) (main (F := F))) ⟨m, fun _ => 0, ρ⟩ (fun r => ∀ c : Dev nD, ArgsKept m r.2 c) :=
  (θ_run defs _ _).mono (fun _ h c => (h c).2) (run_value m ρ)

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (n c : ℕ) : Type := (⟨2, ![n, c]⟩ : Shape).Idx → EReal

abbrev Arr1 (n : ℕ) : Type := (⟨1, ![n]⟩ : Shape).Idx → EReal

abbrev Edges : Type := (⟨2, ![2, 800000]⟩ : Shape).Idx → BitVec 32

abbrev Groups : Type := (⟨1, ![50000]⟩ : Shape).Idx → BitVec 32

def src (ei : Edges) (e : Fin 800000) : BitVec 32 := ei (ix2 (0 : Fin 2) e)

def dst (ei : Edges) (e : Fin 800000) : BitVec 32 := ei (ix2 (1 : Fin 2) e)

def wrap (s : BitVec 32) : BitVec 32 := if s.toInt < 0 then s + 50000#32 else s

def pos (s : BitVec 32) : Fin 50000 := ⟨min (wrap s).toInt.toNat 49999, by omega⟩

def cntK (ei : Edges) (i : Fin 50000) : EReal :=
  ∑ e : Fin 800000, if (dst ei e).toInt = (i.val : ℤ) then (1 : EReal) else 0

def dinvK (ei : Edges) (i : Fin 50000) : EReal := Ideal.rsqrt (cntK ei i + 1)

def lin (h : Arr2 50000 128) (W : Arr2 128 128) : Arr2 50000 128 :=
  fun j => ∑ q : Fin 128, h (ix2 (j 0) q) * W (ix2 q (j 1))

def scaleK (ei : Edges) (hl : Arr2 50000 128) : Arr2 50000 128 := fun j => hl j * dinvK ei (j 0)

def aggK (ei : Edges) (z : Arr2 50000 128) : Arr2 50000 128 :=
  fun j => ∑ e : Fin 800000, if (dst ei e).toInt = ((j 0).val : ℤ) then z (ix2 (pos (src ei e)) (j 1)) else 0

def finK (ei : Edges) (hs agg : Arr2 50000 128) (b : Arr1 128) : Arr2 50000 128 :=
  fun j => dinvK ei (j 0) * (agg j + hs j) + b (ix1 (j 1))

def relu {n c : ℕ} (z : Arr2 n c) : Arr2 n c := fun j => max (z j) 0

def layerK (ei : Edges) (h : Arr2 50000 128) (W : Arr2 128 128) (b : Arr1 128) : Arr2 50000 128 :=
  finK ei (scaleK ei (lin h W)) (aggK ei (scaleK ei (lin h W))) b

def convK (ei : Edges) (x : Arr2 50000 128) (W1 : Arr2 128 128) (b1 : Arr1 128) (W2 : Arr2 128 128) (b2 : Arr1 128)
    (W3 : Arr2 128 128) (b3 : Arr1 128) : Arr2 50000 128 :=
  layerK ei (relu (layerK ei (relu (layerK ei x W1 b1)) W2 b2)) W3 b3

def poolK (batch : Groups) (h : Arr2 50000 128) : Arr2 128 256 :=
  fun j => ∑ i : Fin 50000, h (ix2 i (j 0)) * (if batch (ix1 i) = BitVec.ofNat 32 (j 1).val then (1 : EReal) else 0)

def sizeK (batch : Groups) (g : Fin 256) : EReal :=
  ∑ i : Fin 50000, if batch (ix1 i) = BitVec.ofNat 32 g.val then (1 : EReal) else 0

def headK (pt : Arr2 128 256) (sz : Fin 256 → EReal) (Wm1 : Arr2 128 256) (bm1 : Arr1 256) (Wm2 : Arr2 256 768)
    (bm2 : Arr1 768) : Arr2 256 768 :=
  fun j => (∑ q : Fin 256,
      max ((∑ k : Fin 128, Ideal.div (pt (ix2 k (j 0))) (max (sz (j 0)) 1) * Wm1 (ix2 k q)) + bm1 (ix1 q)) 0
        * Wm2 (ix2 q (j 1))) + bm2 (ix1 (j 1))

def outK (x : Arr2 50000 128) (ei : Edges) (batch : Groups) (W1 : Arr2 128 128) (b1 : Arr1 128) (W2 : Arr2 128 128)
    (b2 : Arr1 128) (W3 : Arr2 128 128) (b3 : Arr1 128) (Wm1 : Arr2 128 256) (bm1 : Arr1 256) (Wm2 : Arr2 256 768)
    (bm2 : Arr1 768) : Arr2 256 768 :=
  headK (poolK batch (convK ei x W1 b1 W2 b2 W3 b3)) (sizeK batch) Wm1 bm1 Wm2 bm2

def srcF (ei : Edges) (e : Fin 850000) : BitVec 32 :=
  if h : e.val < 800000 then src ei ⟨e.val, h⟩ else BitVec.ofNat 32 (e.val - 800000)

def dstF (ei : Edges) (e : Fin 850000) : BitVec 32 :=
  if h : e.val < 800000 then dst ei ⟨e.val, h⟩ else BitVec.ofNat 32 (e.val - 800000)

def degR (ei : Edges) (i : Fin 50000) : EReal :=
  ∑ e : Fin 850000, if (dstF ei e).toInt = (i.val : ℤ) then (1 : EReal) else 0

def dinvR (ei : Edges) (i : Fin 50000) : EReal := if 0 < degR ei i then Ideal.rsqrt (degR ei i) else 0

def layerR (ei : Edges) (h : Arr2 50000 128) (W : Arr2 128 128) (b : Arr1 128) : Arr2 50000 128 :=
  fun j => (∑ e : Fin 850000, if (dstF ei e).toInt = ((j 0).val : ℤ)
      then lin h W (ix2 (pos (srcF ei e)) (j 1)) * (dinvR ei (pos (srcF ei e)) * dinvR ei (pos (dstF ei e))) else 0)
    + b (ix1 (j 1))

def convR (ei : Edges) (x : Arr2 50000 128) (W1 : Arr2 128 128) (b1 : Arr1 128) (W2 : Arr2 128 128) (b2 : Arr1 128)
    (W3 : Arr2 128 128) (b3 : Arr1 128) : Arr2 50000 128 :=
  layerR ei (relu (layerR ei (relu (layerR ei x W1 b1)) W2 b2)) W3 b3

def poolR (batch : Groups) (h : Arr2 50000 128) : Arr2 256 128 :=
  fun j => ∑ i : Fin 50000, if (batch (ix1 i)).toInt = ((j 0).val : ℤ) then h (ix2 i (j 1)) else 0

def sizeR (batch : Groups) (g : Fin 256) : EReal :=
  ∑ i : Fin 50000, if (batch (ix1 i)).toInt = (g.val : ℤ) then (1 : EReal) else 0

def headR (sums : Arr2 256 128) (sz : Fin 256 → EReal) (Wm1 : Arr2 128 256) (bm1 : Arr1 256) (Wm2 : Arr2 256 768)
    (bm2 : Arr1 768) : Arr2 256 768 :=
  fun j => (∑ q : Fin 256,
      max ((∑ k : Fin 128, Ideal.div (sums (ix2 (j 0) k)) (max 1 (sz (j 0))) * Wm1 (ix2 k q)) + bm1 (ix1 q)) 0
        * Wm2 (ix2 q (j 1))) + bm2 (ix1 (j 1))

def outR (x : Arr2 50000 128) (ei : Edges) (batch : Groups) (W1 : Arr2 128 128) (b1 : Arr1 128) (W2 : Arr2 128 128)
    (b2 : Arr1 128) (W3 : Arr2 128 128) (b3 : Arr1 128) (Wm1 : Arr2 128 256) (bm1 : Arr1 256) (Wm2 : Arr2 256 768)
    (bm2 : Arr1 768) : Arr2 256 768 :=
  headR (poolR batch (convR ei x W1 b1 W2 b2 W3 b3)) (sizeR batch) Wm1 bm1 Wm2 bm2

/-- The printed wrap of a word that reads negative is the specification's. -/
theorem select_wrap (s : BitVec 32) :
    Scalar.select (IntOp.cmpi .slt s 0#32) (IntOp.addi s 50000#32) s = wrap s := by
  unfold Scalar.select IntOp.cmpi IntOp.addi wrap
  show (if BitVec.ofBool (s.slt 0#32) = 1 then s + 50000#32 else s) = _
  rw [BitVec.slt_eq_decide, BitVec.toInt_zero]
  by_cases h : s.toInt < 0
  · rw [decide_eq_true h, BitVec.ofBool_true, if_pos rfl, if_pos h]
  · rw [decide_eq_false h, BitVec.ofBool_false, if_neg (by decide), if_neg h]

end Cert.Spec

end
-- ==== Proof.LibScatterGather.lean ====
import Idealize.ShloMosaic.Lib.ValueIdx
import Idealize.ShloMosaic.Lib.ValueIdxRank1
import Idealize.ShloMosaic.Lib.StableHlo.Predicate
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    refine ⟨fun hf => absurd hf (by simp), fun hf => (h fun a => ?_).elim⟩
    have h1 := hf a
    have h2 := (i a).isLt
    omega

-- If every scatter coordinate of update j is e, its start on the one indexed axis a is row e's index read signed.
theorem start_col {s u : Shape} {n w : Nat} (d : ScatterDims s ⟨2, ![n, 1]⟩ u) (a : Fin s.rank)
    (hsd : d.scatterDimsToOperandDims = [a]) (hivd : d.indexVectorDim = 1) (idx : IVec ⟨2, ![n, 1]⟩ w)
    (j : u.Idx) (e : Fin n) (hj : ∀ y ∈ d.uScatter, (j y).val = e.val) :
    d.start j idx a = (idx (ix2 e (0 : Fin 1))).toInt := by
  have hm : a ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact hj _ (List.getElem_mem _)
  | ⟨1, _⟩ =>
    unfold ScatterDims.siIdx
    rw [dif_pos (by rw [hivd])]
    apply Fin.ext
    show List.idxOf a d.scatterDimsToOperandDims = 0
    rw [hsd]; simp

theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  have hs0 : d.start (ix2 e c) idx 0 = (idx (ix2 e (0 : Fin 1))).toInt :=
    start_col d 0 hsd hivd idx _ e fun y hy => by
      have h1 : y ≠ 1 := fun h => by simpa [huw, h] using (List.mem_filter.1 hy).2
      match y, h1 with
      | ⟨0, _⟩, _ => rfl
      | ⟨1, _⟩, h1 => exact absurd rfl h1
  have hs1 : d.start (ix2 e c) idx 1 = 0 := by unfold ScatterDims.start; rw [dif_neg (by rw [hsd]; simp)]
  have hw0 : d.window (ix2 e c) 0 = 0 := by
    unfold ScatterDims.window
    rw [dif_neg fun h => by simpa [hiw] using (List.mem_filter.1 h).2]
  have hw1 : d.window (ix2 e c) 1 = c.val := by
    have hk1 : (1 : Fin 2) ∈ d.sKept := List.mem_filter.2 ⟨List.mem_finRange _, by rw [hiw]; simp⟩
    unfold ScatterDims.window
    rw [dif_pos hk1,
      (show ∀ y ∈ d.updateWindowDims, y = 1 from fun y hy => List.mem_singleton.1 (huw ▸ hy)) _ (List.getElem_mem _)]
    rfl
  rw [resultIdx?_eq_some_iff]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [hs0, hw0] at h0
    rw [hs1, hw1] at h1
    exact ⟨by simpa using h0, Fin.ext (by simpa using h1)⟩
  · rintro ⟨h, rfl⟩ a
    match a with
    | ⟨0, _⟩ =>
      show d.start (ix2 e c) idx 0 + (d.window (ix2 e c) 0 : ℤ) = (v.val : ℤ)
      rw [hs0, hw0, h]
      simp
    | ⟨1, _⟩ =>
      show d.start (ix2 e c) idx 1 + (d.window (ix2 e c) 1 : ℤ) = (c.val : ℤ)
      rw [hs1, hw1]
      simp

theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  rw [Finset.sum_filter, sum_idx2]
  refine Finset.sum_congr rfl (fun e _ => ?_)
  by_cases hc : (idx (ix2 e (0 : Fin 1))).toInt = (v.val : ℤ)
  · rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · rw [if_neg hc]
    apply Finset.sum_eq_zero
    intro c _
    rw [if_neg (fun h => hc ((rows_lands d huw hiw hsd hivd idx e c v j).1 h).1)]

theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  have hs : d.start (ix1 e) idx 0 = (idx (ix2 e (0 : Fin 1))).toInt :=
    start_col d 0 hsd hivd idx _ e fun y _ => by obtain rfl : y = 0 := Subsingleton.elim _ _; rfl
  have hw : d.window (ix1 e) 0 = 0 := by
    unfold ScatterDims.window
    rw [dif_neg fun h => by simpa [hiw] using (List.mem_filter.1 h).2]
  rw [resultIdx?_eq_some_iff]
  constructor
  · intro h
    have h0 : d.start (ix1 e) idx 0 + (d.window (ix1 e) 0 : ℤ) = (v.val : ℤ) := h 0
    rw [hs, hw] at h0
    simpa using h0
  · intro h a
    match a with
    | ⟨0, _⟩ =>
      show d.start (ix1 e) idx 0 + (d.window (ix1 e) 0 : ℤ) = _
      rw [hs, hw, h]
      simp

theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  refine Fintype.sum_equiv idxEquiv1 _ _ (fun j => ?_)
  obtain ⟨e, rfl⟩ : ∃ e : Fin n, j = ix1 e := ⟨j 0, eq_ix1 j⟩
  exact if_congr (vec_lands d hiw hsd hivd idx e v) rfl rfl

-- Position p of a take reads the vector at p's start index, read signed and clamped into 0 … N − 1.
theorem gather_vec {α : Type} {N n w : Nat} (d : GatherDims ⟨1, ![N]⟩ ⟨2, ![n, 1]⟩ ⟨1, ![n]⟩)
    (_ : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  have e1 : ∀ {m : Nat} (k : Fin m), Shape.Idx.ofFin k = ix1 k := fun k => eq_ix1 _
  have h := StableHlo.Predicate.gather_take d hcoll hob hsim hivd x idx p hN
  simpa only [e1, show StableHlo.Predicate.ixP p = ix2 p (0 : Fin 1) from eq_ix2 _] using h

end Cert.Lib

end
-- ==== Proof.LibGatherRows.lean ====
import Idealize.ShloMosaic.Lib.ValueIdx
import Idealize.ShloMosaic.PureOps.ShapeOps
import Idealize.ShloMosaic.PureOps.Dims

namespace Cert.Lib

open Idealize.ShloMosaic Idealize.ShloMosaic.ValueIdx

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  have hb : ∀ a : Fin 2, a ∉ d.operandBatchingDims := fun a => by rw [hob]; exact List.not_mem_nil
  funext a
  apply Fin.ext
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [d.slice_collapsed 0 (by rw [hcoll]; exact List.mem_singleton.mpr rfl)]
    congr 3
    congr 1
    funext b
    match b with
    | ⟨0, _⟩ =>
      unfold GatherDims.siIdx
      rw [dif_neg (by rw [hivd]; simp)]
      unfold GatherDims.siCoord
      apply Fin.ext
      simp only [Fin.val_cast]
      rw [(show ∀ y ∈ d.batchDims, y = 0 from fun y hy => by
        have h1 : y ≠ 1 := fun h => by simpa [hoff, h] using (List.mem_filter.1 hy).2
        match y, h1 with
        | ⟨0, _⟩, _ => rfl
        | ⟨1, _⟩, h1 => exact absurd rfl h1) _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [(show ∀ y ∈ d.offsetDims, y = 1 from fun y hy => List.mem_singleton.1 (hoff ▸ hy)) _ (List.getElem_mem _)]
    rfl

end Cert.Lib
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split <;> omega
  | ⟨1, _⟩ => rfl

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src _ h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

end Cert.Keepdims

end
-- ==== Proof.KI.Host0.lean ====
import proofs.«430777_j3556232921556_3_alg».proof.Proof.KI.LaunchP
import proofs.«430777_j3556232921556_3_alg».proof.Proof.Spec
import proofs.«430777_j3556232921556_3_alg».proof.Proof.LibScatterGather
import proofs.«430777_j3556232921556_3_alg».proof.Proof.LibGatherRows
import proofs.«430777_j3556232921556_3_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Gen

open Idealize.ShloMosaic Idealize.ShloMosaic.TcCoe
open Idealize.ShloMosaic.ValueIdx Cert.Spec

theorem edgeRow_apply (ei : S2x800000.Idx → BitVec 32) (r : Fin 2) (hs : S2x800000.Slices ![r.val, 0] S1x800000)
    (e : Fin 800000) :
    shapeCast S800000 (extractStridedSlice S1x800000 ![r.val, 0] ei hs) shapeCasts_S1x800000_S800000 (ix1 e)
      = ei (ix2 r e) := by
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · refine extractStridedSlice_apply _ ei hs (ix2 (0 : Fin 1) e) (ix2 r e) fun a => ?_
    match a with
    | ⟨0, _⟩ => show r.val = r.val + 0; omega
    | ⟨1, _⟩ => show e.val = 0 + e.val; omega

theorem dstRow_apply (ei : S2x800000.Idx → BitVec 32) (e : Fin 800000) :
    shapeCast S800000 (extractStridedSlice S1x800000 ![1, 0] ei slices_S2x800000_S1x800000_1_0) shapeCasts_S1x800000_S800000 (ix1 e)
      = dst ei e :=
  edgeRow_apply ei (1 : Fin 2) slices_S2x800000_S1x800000_1_0 e

variable (W : Valuation τ sig (Elt Ideal))

theorem host0_src (e : Fin 800000) :
    StableHlo.after hostOps0 W (Proc.devRef .tc main_v1) (ix1 e) = src (W (Proc.devRef .tc main_arg1)) e := by
  refine (congrFun ?_ (ix1 e)).trans (edgeRow_apply (W (Proc.devRef .tc main_arg1)) (0 : Fin 2) slices_S2x800000_S1x800000_0_0 e)
  after_results
  rfl

theorem host0_dst (e : Fin 800000) :
    StableHlo.after hostOps0 W (Proc.devRef .tc main_v3) (ix1 e) = dst (W (Proc.devRef .tc main_arg1)) e := by
  refine (congrFun ?_ (ix1 e)).trans (dstRow_apply (W (Proc.devRef .tc main_arg1)) e)
  after_results
  rfl

theorem host0_batch (p : Fin 50000) :
    StableHlo.after hostOps0 W (Proc.devRef .tc main_v12) (ix2 p (0 : Fin 1)) = W (Proc.devRef .tc main_arg2) (ix1 p) := by
  refine (congrFun ?_ (ix2 p (0 : Fin 1))).trans (Cert.Keepdims.shapeCast_a_a1_apply
    (W (Proc.devRef .tc main_arg2) : S50000.Idx → BitVec 32) shapeCasts_S50000_S50000x1 p 0)
  after_results
  rfl

theorem idxColumn_apply {α : Type} (v : S800000.Idx → α) (e : Fin 800000) :
    broadcastInDim S800000x1 ![0] bcast_S800000_S800000x1_0 v (ix2 e (0 : Fin 1)) = v (ix1 e) := by
  refine broadcastInDim_apply _ bcast_S800000_S800000x1_0 v (ix2 e (0 : Fin 1)) (ix1 e) fun a => ?_
  match a with
  | ⟨0, _⟩ =>
    show e.val = if (800000 : ℕ) = 1 then 0 else e.val
    rw [if_neg (by decide)]

theorem hostRsqrt_apply {s : Shape} {φ : FTy} (x : FVec Ideal s φ) (i : s.Idx) :
    Host.rsqrt x i = Ideal.rsqrt (x i) := rfl

theorem host0_dinv (p : Fin 50000) :
    StableHlo.after hostOps0 W (Proc.devRef .tc main_v11) (ix2 p (0 : Fin 1)) = dinvK (W (Proc.devRef .tc main_arg1)) p := by
  refine (congrFun (?h : _ = shapeCast S50000x1 ?x shapeCasts_S50000_S50000x1) (ix2 p (0 : Fin 1))).trans
    ((Cert.Keepdims.shapeCast_a_a1_apply ?x _ p 0).trans ?_)
  case h => after_results; rfl
  rw [hostRsqrt_apply, addf_apply, Cert.Lib.scatterAdd_vec scatter_S50000_S800000x1_S800000_n_0_0_1 rfl rfl rfl rfl,
    broadcastInDim_scalar_apply, broadcastInDim_scalar_apply, constant_apply, constant_apply,
    Ideal.ofBits_zero_f32, Ideal.ofBits_one_f32, zero_add]
  unfold dinvK cntK
  refine congrArg Ideal.rsqrt (congrArg (fun s : EReal => s + 1) ?_)
  refine Finset.sum_congr rfl fun e _ => ?_
  rw [idxColumn_apply]
  erw [dstRow_apply]
  rw [broadcastInDim_scalar_apply, constant_apply, Ideal.ofBits_one_f32]

end Cert.KernelIdeal.Gen

end
-- ==== Proof.KI.HostAgg.lean ====
import proofs.«430777_j3556232921556_3_alg».proof.Proof.KI.Host0

noncomputable section

namespace Cert.KernelIdeal.Gen

open Idealize.ShloMosaic Idealize.ShloMosaic.TcCoe
open Idealize.ShloMosaic.ValueIdx Cert.Spec

theorem wrapVec_apply (v : S800000.Idx → BitVec 32) (e : Fin 800000) :
    select (cmpi .slt v (broadcastInDim S800000 ![] bcast_S_S800000 (constantI S_ 32 0#32)))
      (addi v (broadcastInDim S800000 ![] bcast_S_S800000 (constantI S_ 32 50000#32))) v (ix1 e) = wrap (v (ix1 e)) := by
  refine (select_apply _ _ _ _).trans ?_
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 50000#32) (ix1 e)))
      (v (ix1 e)) = _
  rw [broadcastInDim_scalar_apply, broadcastInDim_scalar_apply, constantI_apply, constantI_apply]
  exact select_wrap _

theorem aggTerm_apply (z : S50000x128.Idx → EReal) (sv dv : S800000.Idx → BitVec 32) (p : Fin 50000) (k : Fin 128) :
    Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 dv)
        (extf (F := Ideal) (φ := .bf16) .f32
          (Host.gather gather_S50000x128_S800000x1_S800000x128_1_0_n_n_0_1_1128 z
            (broadcastInDim S800000x1 ![0] bcast_S800000_S800000x1_0
              (select (cmpi .slt sv (broadcastInDim S800000 ![] bcast_S_S800000 (constantI S_ 32 0#32)))
                (addi sv (broadcastInDim S800000 ![] bcast_S_S800000 (constantI S_ 32 50000#32))) sv)))
          bitsLt_bf16_f32)
        (ix2 p k)
      = ∑ e : Fin 800000, if (dv (ix1 e)).toInt = (p.val : ℤ) then z (ix2 (pos (sv (ix1 e))) k) else 0 := by
  rw [Cert.Lib.scatterAdd_rows scatter_S50000x128_S800000x1_S800000x128_1_0_0_1 rfl rfl rfl rfl,
    broadcastInDim_scalar_apply, constant_apply, Ideal.ofBits_zero_f32, zero_add]
  refine Finset.sum_congr rfl fun e _ => ?_
  rw [idxColumn_apply, extf_apply,
    Cert.Lib.gather_rows gather_S50000x128_S800000x1_S800000x128_1_0_n_n_0_1_1128 rfl rfl rfl rfl rfl _ _ e k (by decide)]
  refine congrArg (fun r : Fin 50000 => if (dv (ix1 e)).toInt = (p.val : ℤ) then z (ix2 r k) else 0) (Fin.ext ?_)
  show min (BitVec.toInt (broadcastInDim S800000x1 ![0] bcast_S800000_S800000x1_0 (_ : S800000.Idx → BitVec 32) (ix2 e (0 : Fin 1)))).toNat _ = _
  rw [idxColumn_apply, wrapVec_apply]
  rfl

end Cert.KernelIdeal.Gen

end
-- ==== Proof.KI.Host1.lean ====
import proofs.«430777_j3556232921556_3_alg».proof.Proof.KI.HostAgg

noncomputable section

namespace Cert.KernelIdeal.Gen

open Idealize.ShloMosaic Idealize.ShloMosaic.TcCoe
open Idealize.ShloMosaic.ValueIdx Cert.Spec

variable (W : Valuation τ sig (Elt Ideal))

theorem host1_agg (z : S50000x128.Idx → EReal) (sv dv : S800000.Idx → BitVec 32)
    (hz : W (Proc.devRef .tc main_v13) = z) (hs : W (Proc.devRef .tc main_v1) = sv) (hd : W (Proc.devRef .tc main_v3) = dv)
    (p : Fin 50000) (k : Fin 128) :
    StableHlo.after hostOps1 W (Proc.devRef .tc main_v24) (ix2 p k)
      = ∑ e : Fin 800000, if (dv (ix1 e)).toInt = (p.val : ℤ) then z (ix2 (pos (sv (ix1 e))) k) else 0 := by
  subst hz hs hd
  refine (congrFun ?_ (ix2 p k)).trans
    (aggTerm_apply (W (Proc.devRef .tc main_v13)) (W (Proc.devRef .tc main_v1)) (W (Proc.devRef .tc main_v3)) p k)
  after_results_simp <;> rfl

end Cert.KernelIdeal.Gen

end
-- ==== Proof.KI.Host2.lean ====
import proofs.«430777_j3556232921556_3_alg».proof.Proof.KI.HostAgg

noncomputable section

namespace Cert.KernelIdeal.Gen

open Idealize.ShloMosaic Idealize.ShloMosaic.TcCoe
open Idealize.ShloMosaic.ValueIdx Cert.Spec

variable (W : Valuation τ sig (Elt Ideal))

theorem host2_agg (z : S50000x128.Idx → EReal) (sv dv : S800000.Idx → BitVec 32)
    (hz : W (Proc.devRef .tc main_v25) = z) (hs : W (Proc.devRef .tc main_v1) = sv) (hd : W (Proc.devRef .tc main_v3) = dv)
    (p : Fin 50000) (k : Fin 128) :
    StableHlo.after hostOps2 W (Proc.devRef .tc main_v36) (ix2 p k)
      = ∑ e : Fin 800000, if (dv (ix1 e)).toInt = (p.val : ℤ) then z (ix2 (pos (sv (ix1 e))) k) else 0 := by
  subst hz hs hd
  refine (congrFun ?_ (ix2 p k)).trans
    (aggTerm_apply (W (Proc.devRef .tc main_v25)) (W (Proc.devRef .tc main_v1)) (W (Proc.devRef .tc main_v3)) p k)
  after_results_simp <;> rfl

end Cert.KernelIdeal.Gen

end
-- ==== Proof.KI.Host3.lean ====
import proofs.«430777_j3556232921556_3_alg».proof.Proof.KI.HostAgg

noncomputable section

namespace Cert.KernelIdeal.Gen

open Idealize.ShloMosaic Idealize.ShloMosaic.TcCoe
open Idealize.ShloMosaic.ValueIdx Cert.Spec

variable (W : Valuation τ sig (Elt Ideal))

theorem host3_agg (z : S50000x128.Idx → EReal) (sv dv : S800000.Idx → BitVec 32)
    (hz : W (Proc.devRef .tc main_v37) = z) (hs : W (Proc.devRef .tc main_v1) = sv) (hd : W (Proc.devRef .tc main_v3) = dv)
    (p : Fin 50000) (k : Fin 128) :
    StableHlo.after hostOps3 W (Proc.devRef .tc main_v48) (ix2 p k)
      = ∑ e : Fin 800000, if (dv (ix1 e)).toInt = (p.val : ℤ) then z (ix2 (pos (sv (ix1 e))) k) else 0 := by
  subst hz hs hd
  refine (congrFun ?_ (ix2 p k)).trans
    (aggTerm_apply (W (Proc.devRef .tc main_v37)) (W (Proc.devRef .tc main_v1)) (W (Proc.devRef .tc main_v3)) p k)
  after_results_simp <;> rfl

end Cert.KernelIdeal.Gen

end
-- ==== Proof.LibRowProducts.lean ====
import Idealize.ShloMosaic.PureOps.Ideal.Laws
import Idealize.ShloMosaic.Lib.ValueIdx

noncomputable section

open scoped BigOperators

namespace Cert.Lib.RowProducts

open Idealize.ShloMosaic Idealize.ShloMosaic.ValueIdx

section
variable {sl sr so : Shape} {d : DotDims sl sr so} (j : so.Idx) (k : d.contr.Idx) (p : Fin so.rank)

-- With no batch axis the left operand's one free axis reads the result's axis 0,
theorem lhs_free {a : Fin sl.rank} (hb : d.lhsBatch = []) (hn : d.lhsNonContracting = [a]) (hp : p.val = 0) :
    (d.lhsIdx j k a).val = (j p).val := by
  unfold DotDims.lhsIdx
  rw [dif_neg (by rw [hb]; exact List.not_mem_nil), dif_pos (by rw [hn]; exact List.mem_singleton.mpr rfl)]
  simp only [Fin.val_cast]
  exact congrArg (fun q => (j q).val) (Fin.ext (by simp [hb, hn, hp]))

-- and the right operand's one free axis reads the result's axis 1.
theorem rhs_free {a : Fin sr.rank} (hb : d.rhsBatch = []) (hlb : d.lhsBatch = [])
    (hln : d.lhsNonContracting.length = 1) (hn : d.rhsNonContracting = [a]) (hp : p.val = 1) :
    (d.rhsIdx j k a).val = (j p).val := by
  unfold DotDims.rhsIdx
  rw [dif_neg (by rw [hb]; exact List.not_mem_nil), dif_pos (by rw [hn]; exact List.mem_singleton.mpr rfl)]
  simp only [Fin.val_cast]
  exact congrArg (fun q => (j q).val) (Fin.ext (by simp [hlb, hln, hn, hp]))

end

variable {n K c : Nat}

structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  have hr : d.contr.rank = 1 := by rw [d.rank_contr, h.lc]; rfl
  have hs : d.contr.size ⟨0, by omega⟩ = K := by
    rw [d.size_contr 0 (by rw [h.lc]; exact Nat.one_pos)]; simp only [h.lc]; rfl
  rw [← Equiv.sum_comp (contrEquiv1 d K hr hs).symm]
  refine Finset.sum_congr rfl fun q _ => ?_
  have hk := contrEquiv1_symm_val d K hr hs q
  refine congrArg₂ (fun a b => l a * w b) (funext fun a => Fin.ext ?_) (funext fun a => Fin.ext ?_)
  · match a with
    | ⟨0, _⟩ => exact lhs_free j _ 0 h.lb h.ln rfl
    | ⟨1, _⟩ => exact (d.lhsIdx_val_of_single h.lc j _).trans hk
  · match a with
    | ⟨0, _⟩ => exact (d.rhsIdx_val_of_single h.rc j _).trans hk
    | ⟨1, _⟩ => exact rhs_free j _ 1 h.rb h.lb (by rw [h.ln]; rfl) h.rn rfl

theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.KI.Val0.lean ====
import proofs.«430777_j3556232921556_3_alg».proof.Proof.KI.Reg0
import proofs.«430777_j3556232921556_3_alg».proof.Proof.LibRowProducts
import proofs.«430777_j3556232921556_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem plain_rows_dot : Cert.Lib.RowProducts.Plain dot_S5000x128_S128x128_S5000x128_1_0_0_1_n_n :=
  ⟨rfl, rfl, rfl, rfl, rfl, rfl⟩

theorem rows_dot_apply {φ₁ φ₂ : FTy} (l : FVec Ideal S5000x128 φ₁) (w : FVec Ideal S128x128 φ₂) (p : Fin 5000) (k : Fin 128) :
    matmul (F := Ideal) dot_S5000x128_S128x128_S5000x128_1_0_0_1_n_n none l w (constant S5000x128 .f32 0x00000000#32) (ix2 p k)
      = ∑ q : Fin 128, l (ix2 p q) * w (ix2 q k) := by
  simp only [matmul]
  rw [Ideal.matmul_constant_zero_apply, plain_rows_dot.sum_eq]

theorem k0_pay1_apply (x : Vec Ideal S5000x128 .f32) (w : Vec Ideal S128x128 .f32) (d : Vec Ideal S5000x1 .f32)
    (p : Fin 5000) (k : Fin 128) :
    k0_pay1 (F := Ideal) x w d (ix2 p k) = (∑ q : Fin 128, x (ix2 p q) * w (ix2 q k)) * d (ix2 p (0 : Fin 1)) := by
  unfold k0_pay1
  rw [truncf_apply, mulf_apply, Cert.Keepdims.broadcastTo_a1_ab_apply, shapeCast_self, rows_dot_apply]
  rfl

theorem zero_offsets0 : (![0, 0] : Fin 2 → Nat) = fun _ => 0 := funext fun a => by fin_cases a <;> rfl
theorem zero_offset_vec : (![0] : Fin 1 → Nat) = fun _ => 0 := funext fun a => by fin_cases a; rfl

-- Entry (p, k): row p of `a` times column k of `w`, scaled by the row's entry of `d`.
def rowsTimes0 (a : S50000x128.Idx → EReal) (d : S50000x1.Idx → EReal) (w : S128x128.Idx → EReal) : S50000x128.Idx → EReal :=
  fun i => (∑ q : Fin 128, a (ix2 (i 0) q) * w (ix2 q (i 1))) * d (ix2 (i 0) (0 : Fin 1))

theorem index_onto0 : ∀ q0 : Fin 10, ∃ t : Fin cfg0.N, win0_3.index t (0 : Fin 2) = q0.val :=
  (by decide +kernel : ∀ q0 : Fin 10, ∃ t : Fin grid0.N, win0_3.index t (0 : Fin 2) = q0.val)

theorem flushed0_eq (c : Dev nD) (t : Fin cfg0.N) :
    (dat0 (F := Ideal) V c).flushed 3 t
      = ((cfg0.win 3).blk t).view.read (Elt Ideal) (rowsTimes0 (V c main_arg0) (V c main_v11) (V c main_arg3)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S5000x1) zero_offsets0,
    View.ld_unit_zero (S := S128x128) zero_offsets0]
  funext j
  obtain ⟨p, k, rfl⟩ : ∃ (p : Fin 5000) (k : Fin 128), j = ix2 p k := ⟨j 0, j 1, eq_ix2 j⟩
  show k0_pay1 (F := Ideal) (iblk0 V c 0 t) (iblk0 V c 2 t) (iblk0 V c 1 t) (ix2 p k) = _
  rw [k0_pay1_apply]
  exact congrArg₂ (· * ·) (Finset.sum_congr rfl fun q _ => congrArg₂ (· * ·)
      (congrArg (V c main_arg0) (Shape.idx_ext₂ rfl (win0_0.rect_emb_val_of_index_zero t (1 : Fin 2) rfl _)))
      (congrArg (V c main_arg3) (Shape.idx_ext₂ (win0_2.rect_emb_val_of_index_zero t (0 : Fin 2) rfl _) rfl)))
    (congrArg (V c main_v11) (Shape.idx_ext₂ rfl rfl))

-- Row r of the array lies in block r / 5000, at the block's row r % 5000.
theorem cover0 (i : S50000x128.Idx) :
    ∃ t : Fin cfg0.N, (cfg0.win 3).flush t = true ∧ i ∈ ((cfg0.win 3).blk t).view.set := by
  obtain ⟨t, ht⟩ := index_onto0 ⟨(i 0).val / 5000, Nat.div_lt_of_lt_mul (i 0).isLt⟩
  have e : ((cfg0.win 3).blk t).view.emb (ix2 ⟨(i 0).val % 5000, Nat.mod_lt _ (by decide)⟩ (i 1)) = i :=
    Shape.idx_ext₂ ((win0_3.rect_emb_val t _ (0 : Fin 2)).trans (by rw [ht]; exact Nat.div_add_mod' _ _))
      (win0_3.rect_emb_val_of_index_zero t (1 : Fin 2) rfl _)
  exact ⟨t, flush0_3 t, e ▸ ((cfg0.win 3).blk t).view.emb_mem_set _⟩

theorem final0_apply (c : Dev nD) (x : S50000x128.Idx → EReal) (w : S128x128.Idx → EReal) (d : S50000x1.Idx → EReal)
    (hx : V c main_arg0 = x) (hw : V c main_arg3 = w) (hd : V c main_v11 = d) (p : Fin 50000) (k : Fin 128) :
    (dat0 (F := Ideal) V c).arrAt 3 cfg0.N (ix2 p k)
      = (∑ q : Fin 128, x (ix2 p q) * w (ix2 q k)) * d (ix2 p (0 : Fin 1)) := by
  subst hx hw hd
  exact congrFun ((dat0 (F := Ideal) V c).arrAt_eq_of_cover 3 _ (fun t _ => flushed0_eq V c t) cover0) (ix2 p k)

end Cert.KernelIdeal.Gen

end
-- ==== Proof.KI.Val1.lean ====
import proofs.«430777_j3556232921556_3_alg».proof.Proof.KI.Reg1
import proofs.«430777_j3556232921556_3_alg».proof.Proof.KI.Val0

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem k1_pay1_apply (d : Vec Ideal S5000x1 .f32) (hs : Vec Ideal S5000x128 .bf16) (agg : Vec Ideal S5000x128 .f32)
    (b : Vec Ideal S128 .f32) (w : Vec Ideal S128x128 .f32) (p : Fin 5000) (k : Fin 128) :
    k1_pay1 (F := Ideal) d hs agg b w (ix2 p k)
      = (∑ q : Fin 128, max (d (ix2 p (0 : Fin 1)) * (agg (ix2 p q) + hs (ix2 p q)) + b (ix1 q)) 0 * w (ix2 q k))
        * d (ix2 p (0 : Fin 1)) := by
  unfold k1_pay1
  rw [truncf_apply, mulf_apply, Cert.Keepdims.broadcastTo_a1_ab_apply, shapeCast_self, rows_dot_apply]
  refine congrArg (· * d (ix2 p (0 : Fin 1))) (Finset.sum_congr rfl fun q _ => ?_)
  rw [truncf_apply, truncf_apply, maximumf_apply, broadcast_apply, addf_apply, mulf_apply,
    Cert.Keepdims.broadcastTo_a1_ab_apply, addf_apply, shapeCast_self, extf_apply, shapeCast_self,
    broadcastTo_1b_ab_apply, shapeCast_self, shapeCast_a_1a_apply]
  show max (d (ix2 p (0 : Fin 1)) * (agg (ix2 p q) + hs (ix2 p q)) + b (ix1 q)) (Ideal.ofBits .f32 0x00000000#32) * w (ix2 q k) = _
  rw [Ideal.ofBits_zero_f32]

def reluRowsTimes1 (agg hs : S50000x128.Idx → EReal) (d : S50000x1.Idx → EReal) (b : S128.Idx → EReal)
    (w : S128x128.Idx → EReal) : S50000x128.Idx → EReal :=
  fun i => (∑ q : Fin 128, max (d (ix2 (i 0) (0 : Fin 1)) * (agg (ix2 (i 0) q) + hs (ix2 (i 0) q)) + b (ix1 q)) 0 * w (ix2 q (i 1)))
    * d (ix2 (i 0) (0 : Fin 1))

theorem index_onto1 : ∀ q0 : Fin 10, ∃ t : Fin cfg1.N, win1_5.index t (0 : Fin 2) = q0.val :=
  (by decide +kernel : ∀ q0 : Fin 10, ∃ t : Fin grid1.N, win1_5.index t (0 : Fin 2) = q0.val)

theorem flushed1_eq (c : Dev nD) (t : Fin cfg1.N) :
    (dat1 (F := Ideal) V c).flushed 5 t
      = ((cfg1.win 5).blk t).view.read (Elt Ideal)
          (reluRowsTimes1 (V c main_v24) (V c main_v13) (V c main_v11) (V c main_arg4) (V c main_arg5)) := by
  show (cfg1.win 5).cut (grid1.coords t) ((dat1 V c).after 5 t) = _
  rw [after1_5]
  unfold out1_5
  rw [View.canon_unit_zero zero_offsets0]
  simp only [View.ld_unit_zero (S := S5000x128) zero_offsets0, View.ld_unit_zero (S := S5000x1) zero_offsets0,
    View.ld_unit_zero (S := S128x128) zero_offsets0, View.ld_unit_zero (S := S128) zero_offset_vec]
  funext j
  obtain ⟨p, k, rfl⟩ : ∃ (p : Fin 5000) (k : Fin 128), j = ix2 p k := ⟨j 0, j 1, eq_ix2 j⟩
  show k1_pay1 (F := Ideal) (iblk1 V c 2 t) (iblk1 V c 1 t) (iblk1 V c 0 t) (iblk1 V c 3 t) (iblk1 V c 4 t) (ix2 p k) = _
  rw [k1_pay1_apply]
  have hd : iblk1 V c 2 t (ix2 p (0 : Fin 1))
      = V c main_v11 (ix2 (((cfg1.win 5).blk t).view.emb (ix2 p k) 0) (0 : Fin 1)) :=
    congrArg (V c main_v11) (Shape.idx_ext₂ rfl rfl)
  exact congrArg₂ (· * ·) (Finset.sum_congr rfl fun q _ => congrArg₂ (· * ·)
    (congrArg (max · 0) (congrArg₂ (· + ·) (congrArg₂ (· * ·) hd (congrArg₂ (· + ·)
        (congrArg (V c main_v24) (Shape.idx_ext₂ rfl (win1_0.rect_emb_val_of_index_zero t (1 : Fin 2) rfl _)))
        (congrArg (V c main_v13) (Shape.idx_ext₂ rfl (win1_1.rect_emb_val_of_index_zero t (1 : Fin 2) rfl _)))))
      (congrArg (V c main_arg4) ((eq_ix1 _).trans (congrArg ix1 (Fin.ext (win1_3.rect_emb_val_of_index_zero t (0 : Fin 1) rfl _)))))))
    (congrArg (V c main_arg5) (Shape.idx_ext₂ (win1_4.rect_emb_val_of_index_zero t (0 : Fin 2) rfl _) rfl))) hd

-- Row r of the array lies in block r / 5000, at the block's row r % 5000.
theorem cover1 (i : S50000x128.Idx) :
    ∃ t : Fin cfg1.N, (cfg1.win 5).flush t = true ∧ i ∈ ((cfg1.win 5).blk t).view.set := by
  obtain ⟨t, ht⟩ := index_onto1 ⟨(i 0).val / 5000, Nat.div_lt_of_lt_mul (i 0).isLt⟩
  have e : ((cfg1.win 5).blk t).view.emb (ix2 ⟨(i 0).val % 5000, Nat.mod_lt _ (by decide)⟩ (i 1)) = i :=
    Shape.idx_ext₂ ((win1_5.rect_emb_val t _ (0 : Fin 2)).trans (by rw [ht]; exact Nat.div_add_mod' _ _))
      (win1_5.rect_emb_val_of_index_zero t (1 : Fin 2) rfl _)
  exact ⟨t, flush1_5 t, e ▸ ((cfg1.win 5).blk t).view.emb_mem_set _⟩

theorem final1_apply (c : Dev nD) (agg hs : S50000x128.Idx → EReal) (d : S50000x1.Idx → EReal) (b : S128.Idx → EReal)
    (w : S128x128.Idx → EReal) (hagg : V c main_v24 = agg) (hhs : V c main_v13 = hs) (hd : V c main_v11 = d)
    (hb : V c main_arg4 = b) (hw : V c main_arg5 = w) (p : Fin 50000) (k : Fin 128) :
    (dat1 (F := Ideal) V c).arrAt 5 cfg1.N (ix2 p k)
      = (∑ q : Fin 128, max (d (ix2 p (0 : Fin 1)) * (agg (ix2 p q) + hs (ix2 p q)) + b (ix1 q)) 0 * w (ix2 q k))
        * d (ix2 p (0 : Fin 1)) := by
  subst hagg hhs hd hb hw
  exact congrFun ((dat1 (F := Ideal) V c).arrAt_eq_of_cover 5 _ (fun t _ => flushed1_eq V c t) cover1) (ix2 p k)

end Cert.KernelIdeal.Gen

end
-- ==== Proof.KI.Val2.lean ====
import proofs.«430777_j3556232921556_3_alg».proof.Proof.KI.Reg2
import proofs.«430777_j3556232921556_3_alg».proof.Proof.KI.Val0

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem k2_pay1_apply (d : Vec Ideal S5000x1 .f32) (hs : Vec Ideal S5000x128 .bf16) (agg : Vec Ideal S5000x128 .f32)
    (b : Vec Ideal S128 .f32) (w : Vec Ideal S128x128 .f32) (p : Fin 5000) (k : Fin 128) :
    k2_pay1 (F := Ideal) d hs agg b w (ix2 p k)
      = (∑ q : Fin 128, max (d (ix2 p (0 : Fin 1)) * (agg (ix2 p q) + hs (ix2 p q)) + b (ix1 q)) 0 * w (ix2 q k))
        * d (ix2 p (0 : Fin 1)) := by
  unfold k2_pay1
  rw [truncf_apply, mulf_apply, Cert.Keepdims.broadcastTo_a1_ab_apply, shapeCast_self, rows_dot_apply]
  refine congrArg (· * d (ix2 p (0 : Fin 1))) (Finset.sum_congr rfl fun q _ => ?_)
  rw [truncf_apply, truncf_apply, maximumf_apply, broadcast_apply, addf_apply, mulf_apply,
    Cert.Keepdims.broadcastTo_a1_ab_apply, addf_apply, shapeCast_self, extf_apply, shapeCast_self,
    broadcastTo_1b_ab_apply, shapeCast_self, shapeCast_a_1a_apply]
  show max (d (ix2 p (0 : Fin 1)) * (agg (ix2 p q) + hs (ix2 p q)) + b (ix1 q)) (Ideal.ofBits .f32 0x00000000#32) * w (ix2 q k) = _
  rw [Ideal.ofBits_zero_f32]

def reluRowsTimes2 (agg hs : S50000x128.Idx → EReal) (d : S50000x1.Idx → EReal) (b : S128.Idx → EReal)
    (w : S128x128.Idx → EReal) : S50000x128.Idx → EReal :=
  fun i => (∑ q : Fin 128, max (d (ix2 (i 0) (0 : Fin 1)) * (agg (ix2 (i 0) q) + hs (ix2 (i 0) q)) + b (ix1 q)) 0 * w (ix2 q (i 1)))
    * d (ix2 (i 0) (0 : Fin 1))

theorem index_onto2 : ∀ q0 : Fin 10, ∃ t : Fin cfg2.N, win2_5.index t (0 : Fin 2) = q0.val :=
  (by decide +kernel : ∀ q0 : Fin 10, ∃ t : Fin grid2.N, win2_5.index t (0 : Fin 2) = q0.val)

theorem flushed2_eq (c : Dev nD) (t : Fin cfg2.N) :
    (dat2 (F := Ideal) V c).flushed 5 t
      = ((cfg2.win 5).blk t).view.read (Elt Ideal)
          (reluRowsTimes2 (V c main_v36) (V c main_v25) (V c main_v11) (V c main_arg6) (V c main_arg7)) := by
  show (cfg2.win 5).cut (grid2.coords t) ((dat2 V c).after 5 t) = _
  rw [after2_5]
  unfold out2_5
  rw [View.canon_unit_zero zero_offsets0]
  simp only [View.ld_unit_zero (S := S5000x128) zero_offsets0, View.ld_unit_zero (S := S5000x1) zero_offsets0,
    View.ld_unit_zero (S := S128x128) zero_offsets0, View.ld_unit_zero (S := S128) zero_offset_vec]
  funext j
  obtain ⟨p, k, rfl⟩ : ∃ (p : Fin 5000) (k : Fin 128), j = ix2 p k := ⟨j 0, j 1, eq_ix2 j⟩
  show k2_pay1 (F := Ideal) (iblk2 V c 2 t) (iblk2 V c 1 t) (iblk2 V c 0 t) (iblk2 V c 3 t) (iblk2 V c 4 t) (ix2 p k) = _
  rw [k2_pay1_apply]
  have hd : iblk2 V c 2 t (ix2 p (0 : Fin 1))
      = V c main_v11 (ix2 (((cfg2.win 5).blk t).view.emb (ix2 p k) 0) (0 : Fin 1)) :=
    congrArg (V c main_v11) (Shape.idx_ext₂ rfl rfl)
  exact congrArg₂ (· * ·) (Finset.sum_congr rfl fun q _ => congrArg₂ (· * ·)
    (congrArg (max · 0) (congrArg₂ (· + ·) (congrArg₂ (· * ·) hd (congrArg₂ (· + ·)
        (congrArg (V c main_v36) (Shape.idx_ext₂ rfl (win2_0.rect_emb_val_of_index_zero t (1 : Fin 2) rfl _)))
        (congrArg (V c main_v25) (Shape.idx_ext₂ rfl (win2_1.rect_emb_val_of_index_zero t (1 : Fin 2) rfl _)))))
      (congrArg (V c main_arg6) ((eq_ix1 _).trans (congrArg ix1 (Fin.ext (win2_3.rect_emb_val_of_index_zero t (0 : Fin 1) rfl _)))))))
    (congrArg (V c main_arg7) (Shape.idx_ext₂ (win2_4.rect_emb_val_of_index_zero t (0 : Fin 2) rfl _) rfl))) hd

-- Row r of the array lies in block r / 5000, at the block's row r % 5000.
theorem cover2 (i : S50000x128.Idx) :
    ∃ t : Fin cfg2.N, (cfg2.win 5).flush t = true ∧ i ∈ ((cfg2.win 5).blk t).view.set := by
  obtain ⟨t, ht⟩ := index_onto2 ⟨(i 0).val / 5000, Nat.div_lt_of_lt_mul (i 0).isLt⟩
  have e : ((cfg2.win 5).blk t).view.emb (ix2 ⟨(i 0).val % 5000, Nat.mod_lt _ (by decide)⟩ (i 1)) = i :=
    Shape.idx_ext₂ ((win2_5.rect_emb_val t _ (0 : Fin 2)).trans (by rw [ht]; exact Nat.div_add_mod' _ _))
      (win2_5.rect_emb_val_of_index_zero t (1 : Fin 2) rfl _)
  exact ⟨t, flush2_5 t, e ▸ ((cfg2.win 5).blk t).view.emb_mem_set _⟩

theorem final2_apply (c : Dev nD) (agg hs : S50000x128.Idx → EReal) (d : S50000x1.Idx → EReal) (b : S128.Idx → EReal)
    (w : S128x128.Idx → EReal) (hagg : V c main_v36 = agg) (hhs : V c main_v25 = hs) (hd : V c main_v11 = d)
    (hb : V c main_arg6 = b) (hw : V c main_arg7 = w) (p : Fin 50000) (k : Fin 128) :
    (dat2 (F := Ideal) V c).arrAt 5 cfg2.N (ix2 p k)
      = (∑ q : Fin 128, max (d (ix2 p (0 : Fin 1)) * (agg (ix2 p q) + hs (ix2 p q)) + b (ix1 q)) 0 * w (ix2 q k))
        * d (ix2 p (0 : Fin 1)) := by
  subst hagg hhs hd hb hw
  exact congrFun ((dat2 (F := Ideal) V c).arrAt_eq_of_cover 5 _ (fun t _ => flushed2_eq V c t) cover2) (ix2 p k)

end Cert.KernelIdeal.Gen

end
-- ==== Proof.LibColProducts.lean ====
import proofs.«430777_j3556232921556_3_alg».proof.Proof.LibRowProducts

noncomputable section

open scoped BigOperators

namespace Cert.Lib.ColProducts

open Idealize.ShloMosaic Idealize.ShloMosaic.ValueIdx Cert.Lib.RowProducts

variable {n K c : Nat}

structure TransposedLhs (d : DotDims ⟨2, ![K, n]⟩ ⟨2, ![K, c]⟩ ⟨2, ![n, c]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, n]⟩ ⟨2, ![K, c]⟩ ⟨2, ![n, c]⟩}

theorem TransposedLhs.sum_eq (h : TransposedLhs d) (l : (⟨2, ![K, n]⟩ : Shape).Idx → EReal)
    (w : (⟨2, ![K, c]⟩ : Shape).Idx → EReal) (j : (⟨2, ![n, c]⟩ : Shape).Idx) :
    ∑ k : d.contr.Idx, l (d.lhsIdx j k) * w (d.rhsIdx j k) = ∑ q : Fin K, l (ix2 q (j 0)) * w (ix2 q (j 1)) := by
  have hr : d.contr.rank = 1 := by rw [d.rank_contr, h.lc]; rfl
  have hs : d.contr.size ⟨0, by omega⟩ = K := by
    rw [d.size_contr 0 (by rw [h.lc]; exact Nat.one_pos)]; simp only [h.lc]; rfl
  rw [← Equiv.sum_comp (contrEquiv1 d K hr hs).symm]
  refine Finset.sum_congr rfl fun q _ => ?_
  have hk := contrEquiv1_symm_val d K hr hs q
  refine congrArg₂ (fun a b => l a * w b) (funext fun a => Fin.ext ?_) (funext fun a => Fin.ext ?_)
  · match a with
    | ⟨0, _⟩ => exact (d.lhsIdx_val_of_single h.lc j _).trans hk
    | ⟨1, _⟩ => exact lhs_free j _ 0 h.lb h.ln rfl
  · match a with
    | ⟨0, _⟩ => exact (d.rhsIdx_val_of_single h.rc j _).trans hk
    | ⟨1, _⟩ => exact rhs_free j _ 1 h.rb h.lb (by rw [h.ln]; rfl) h.rn rfl

theorem TransposedLhs.matmul_zero_ix2 {φ₁ φ₂ : FTy} (h : TransposedLhs d) (prec : Option ContractPrecision)
    (l : FVec Ideal ⟨2, ![K, n]⟩ φ₁) (w : FVec Ideal ⟨2, ![K, c]⟩ φ₂) (r : Fin n) (c' : Fin c) :
    matmul (F := Ideal) d prec l w (constant ⟨2, ![n, c]⟩ .f32 0x00000000#32) (ix2 r c')
      = ∑ q : Fin K, l (ix2 q r) * w (ix2 q c') :=
  (Ideal.matmul_constant_zero_apply d prec l w _).trans (h.sum_eq l w _)

end Cert.Lib.ColProducts

end
-- ==== Proof.LibBlockSum.lean ====
import Mathlib.Logic.Equiv.Fin.Basic
import Mathlib.Data.Fintype.BigOperators
import Mathlib.Algebra.BigOperators.Group.Finset.Defs

namespace Cert.Lib

theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

end Cert.Lib
-- ==== Proof.KI.Val3.lean ====
import proofs.«430777_j3556232921556_3_alg».proof.Proof.KI.Reg3
import proofs.«430777_j3556232921556_3_alg».proof.Proof.LibColProducts
import proofs.«430777_j3556232921556_3_alg».proof.Proof.LibBlockSum
import proofs.«430777_j3556232921556_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx
open Idealize.SL.Sem
open Idealize.ShloMosaic.Pipeline (Dat Cfg Window)
open scoped BigOperators

theorem hz3_2 : (![0, 0] : Fin 2 → Nat) = fun _ => 0 := funext fun a => by fin_cases a <;> rfl
theorem hz3_1 : (![0] : Fin 1 → Nat) = fun _ => 0 := funext fun a => by fin_cases a <;> rfl

theorem onehot_word (a b : BitVec 32) :
    ((((IntOp.cmpi .eq a b).setWidth 32).toInt : ℝ) : EReal) = if a = b then (1 : EReal) else 0 := by
  unfold IntOp.cmpi
  by_cases h : a = b
  · simp [h]
  · have hb : (a == b) = false := by simp [h]
    simp [hb, h]

theorem pay4_apply (v19 : Vec Ideal S5000x1 .i32) (l : Fin 5000) (g : Fin 256) :
    k3_pay4 (F := Ideal) v19 (ix2 l g) = IntOp.cmpi .eq (v19 (ix2 l (0 : Fin 1))) (BitVec.ofNat 32 g.val) := by
  unfold k3_pay4
  simp only [shapeCast_self]
  show IntOp.cmpi .eq (broadcastTo S5000x256 v19 broadcasts_S5000x1_S5000x256 (ix2 l g))
      (broadcastTo S5000x256 (iota .tc S1x256 32 [1] iota_S1x256_d1_w32) broadcasts_S1x256_S5000x256 (ix2 l g)) = _
  rw [Cert.Keepdims.broadcastTo_a1_ab_apply, broadcastTo_1b_ab_apply, iota_single_apply]

theorem onehot_apply (v19 : Vec Ideal S5000x1 .i32) (l : Fin 5000) (g : Fin 256) :
    (sitofp .f32 (extui 32 (k3_pay4 (F := Ideal) v19) natLt_1_32) : FVec Ideal S5000x256 .f32) (ix2 l g)
      = if v19 (ix2 l (0 : Fin 1)) = BitVec.ofNat 32 g.val then (1 : EReal) else 0 := by
  show ((((k3_pay4 (F := Ideal) v19 (ix2 l g)).setWidth 32).toInt : ℝ) : EReal) = _
  rw [pay4_apply, onehot_word]

theorem dot3_T : Cert.Lib.ColProducts.TransposedLhs dot_S5000x128_S5000x256_S128x256_0_0_1_1_n_n :=
  ⟨rfl, rfl, rfl, rfl, rfl, rfl⟩

theorem stepP3_apply (x0 : Vec Ideal S5000x128 .f32) (x1 : Vec Ideal S5000x128 .bf16) (x2 : Vec Ideal S5000x1 .f32)
    (x3 : Vec Ideal S128 .f32) (x4 : Vec Ideal S5000x1 .i32) (s0 : Vec Ideal S128x256 .f32) (k : Fin 128) (g : Fin 256) :
    stepP3 (F := Ideal) x0 x1 x2 x3 x4 s0 (ix2 k g)
      = s0 (ix2 k g) + ∑ l : Fin 5000,
          (x2 (ix2 l (0 : Fin 1)) * (x0 (ix2 l k) + x1 (ix2 l k)) + x3 (ix1 k))
            * (if x4 (ix2 l (0 : Fin 1)) = BitVec.ofNat 32 g.val then (1 : EReal) else 0) := by
  unfold stepP3
  rw [View.canon_unit_zero hz3_2]
  simp only [View.ld_unit_zero (S := S5000x128) hz3_2, View.ld_unit_zero (S := S5000x1) hz3_2,
    View.ld_unit_zero (S := S128) hz3_1, View.ld_unit_zero (S := S128x256) hz3_2]
  unfold k3_pay5
  simp only [shapeCast_self]
  rw [addf_apply, dot3_T.matmul_zero_ix2]
  refine congrArg (fun s => s0 (ix2 k g) + s) (Finset.sum_congr rfl fun l _ => ?_)
  rw [truncf_apply, truncf_apply, onehot_apply, addf_apply, mulf_apply, addf_apply, extf_apply,
    Cert.Keepdims.broadcastTo_a1_ab_apply, broadcastTo_1b_ab_apply, shapeCast_a_1a_apply]

theorem stepC3_apply (x4 : Vec Ideal S5000x1 .i32) (s1 : Vec Ideal S1x256 .f32) (g : Fin 256) :
    stepC3 (F := Ideal) x4 s1 (ix2 (0 : Fin 1) g)
      = s1 (ix2 (0 : Fin 1) g) + ∑ l : Fin 5000,
          if x4 (ix2 l (0 : Fin 1)) = BitVec.ofNat 32 g.val then (1 : EReal) else 0 := by
  unfold stepC3
  rw [View.canon_unit_zero hz3_2]
  simp only [View.ld_unit_zero (S := S5000x1) hz3_2, View.ld_unit_zero (S := S1x256) hz3_2]
  unfold k3_pay1 k3_pay6
  simp only [shapeCast_self]
  rw [addf_apply, shapeCast_a_1a_apply, Cert.Keepdims.add_cols_f32]
  exact congrArg (fun s => s1 (ix2 (0 : Fin 1) g) + s) (Finset.sum_congr rfl fun l _ => onehot_apply x4 l g)

theorem resP3_apply (j : S128x256.Idx) : resP3 (F := Ideal) j = 0 := by
  unfold resP3
  rw [View.canon_unit_zero hz3_2]
  exact Ideal.ofBits_zero_f32

theorem resC3_apply (j : S1x256.Idx) : resC3 (F := Ideal) j = 0 := by
  unfold resC3
  rw [View.canon_unit_zero hz3_2]
  exact Ideal.ofBits_zero_f32

theorem N3 : cfg3.N = 10 := by decide

theorem idx3 : ∀ t : Fin cfg3.N, win3_0.index t (0 : Fin 2) = t.val := (by decide +kernel : ∀ t : Fin grid3.N, _)

-- Block t starts at row t · 5000.
theorem row3 (t : Fin cfg3.N) (l : ℕ) : win3_0.index t (0 : Fin 2) * 5000 + l = t.val * 5000 + l := by rw [idx3 t]

-- A block whose index is zero on every axis sits in its array at its own coordinates.
private theorem emb_whole {G : Pipeline.Grid} (w : Window sig G) (t : Fin G.N) (h : ∀ a, w.index t a = 0)
    (y : (w.xblock (G.coords t)).Idx) (z : w.shape.Idx) (hz : ∀ a, (y a).val = (z a).val) : (w.rect t).emb y = z :=
  funext fun a => Fin.ext ((w.rect_emb_val_of_index_zero t a (h a) y).trans (hz a))

def val3_termP (agg hs : S50000x128.Idx → EReal) (dinv : S50000x1.Idx → EReal) (b3 : S128.Idx → EReal) (batch : S50000x1.Idx → BitVec 32) (k : Fin 128) (g : Fin 256) (i : Fin 50000) : EReal :=
  (dinv (ix2 i (0 : Fin 1)) * (agg (ix2 i k) + hs (ix2 i k)) + b3 (ix1 k))
    * (if batch (ix2 i (0 : Fin 1)) = BitVec.ofNat 32 g.val then (1 : EReal) else 0)

def val3_termC (batch : S50000x1.Idx → BitVec 32) (g : Fin 256) (i : Fin 50000) : EReal :=
  if batch (ix2 i (0 : Fin 1)) = BitVec.ofNat 32 g.val then (1 : EReal) else 0

def val3_block (f : Fin 50000 → EReal) (t : ℕ) : EReal :=
  if h : t < 10 then ∑ l : Fin 5000, f ⟨t * 5000 + l.val, by have := l.isLt; omega⟩ else 0

-- Ten blocks of 5000 consecutive rows are all 50000 rows.
theorem val3_blocks_total (f : Fin 50000 → EReal) : ∑ t ∈ Finset.range 10, val3_block f t = ∑ i : Fin 50000, f i := by
  rw [Finset.sum_range, ← Cert.Lib.sum_blocks (T := 10) (L := 5000) (N := 50000) rfl f
    (fun t l => by have := t.isLt; have := l.isLt; omega)]
  exact Finset.sum_congr rfl fun t _ => dif_pos t.isLt

-- A quantity that starts at the first addend and gains one addend a step is the running sum.
theorem fold_sum {ι : Type} (acc : ℕ → ι → EReal) (M : ℕ → EReal) (i : ι) (h0 : acc 0 i = M 0)
    (hs : ∀ n, n + 1 < 10 → acc (n + 1) i = acc n i + M (n + 1)) :
    ∀ n, n < 10 → acc n i = ∑ t ∈ Finset.range (n + 1), M t
  | 0, _ => by rw [h0, Finset.sum_range_one]
  | n + 1, hn => by rw [hs n hn, fold_sum acc M i h0 hs n (by omega), Finset.sum_range_succ _ (n + 1)]

variable (V : (c : Dev nD) → (b : Ref sig .tc) → Buf (Elt Ideal) ((c : Thread nD τ).loc b)) (c : Dev nD)

theorem stepP3_blk (k : Fin 128) (g : Fin 256) (t : Fin cfg3.N) (s0 : Vec Ideal S128x256 .f32) :
    stepP3 (F := Ideal) (iblk3 V c 0 t) (iblk3 V c 1 t) (iblk3 V c 2 t) (iblk3 V c 3 t) (iblk3 V c 4 t) s0 (ix2 k g)
      = s0 (ix2 k g) + val3_block (val3_termP (V c main_v48) (V c main_v37) (V c main_v11) (V c main_arg8) (V c main_v12) k g) t.val := by
  rw [stepP3_apply, val3_block, dif_pos (lt_of_lt_of_eq t.isLt N3)]
  refine congrArg (s0 (ix2 k g) + ·) (Finset.sum_congr rfl fun l _ => ?_)
  have hr := row3 t l.val
  exact congrArg₂ (· * ·) (congrArg₂ (· + ·) (congrArg₂ (· * ·)
      (congrArg (V c main_v11) (Shape.idx_ext₂ ((win3_2.rect_emb_val t _ (0 : Fin 2)).trans hr) rfl))
      (congrArg₂ (· + ·)
        (congrArg (V c main_v48) (Shape.idx_ext₂ ((win3_0.rect_emb_val t _ (0 : Fin 2)).trans hr)
          (win3_0.rect_emb_val_of_index_zero t (1 : Fin 2) rfl _)))
        (congrArg (V c main_v37) (Shape.idx_ext₂ ((win3_1.rect_emb_val t _ (0 : Fin 2)).trans hr)
          (win3_1.rect_emb_val_of_index_zero t (1 : Fin 2) rfl _)))))
      (congrArg (V c main_arg8) ((eq_ix1 _).trans (congrArg ix1 (Fin.ext (win3_3.rect_emb_val_of_index_zero t (0 : Fin 1) rfl _))))))
    (congrArg (fun x => if x = BitVec.ofNat 32 g.val then (1 : EReal) else 0)
      (congrArg (V c main_v12) (Shape.idx_ext₂ ((win3_4.rect_emb_val t _ (0 : Fin 2)).trans hr) rfl)))

theorem stepC3_blk (g : Fin 256) (t : Fin cfg3.N) (s1 : Vec Ideal S1x256 .f32) :
    stepC3 (F := Ideal) (iblk3 V c 4 t) s1 (ix2 (0 : Fin 1) g)
      = s1 (ix2 (0 : Fin 1) g) + val3_block (val3_termC (V c main_v12) g) t.val := by
  rw [stepC3_apply, val3_block, dif_pos (lt_of_lt_of_eq t.isLt N3)]
  refine congrArg (s1 (ix2 (0 : Fin 1) g) + ·) (Finset.sum_congr rfl fun l _ => ?_)
  exact congrArg (fun x => if x = BitVec.ofNat 32 g.val then (1 : EReal) else 0)
    (congrArg (V c main_v12) (Shape.idx_ext₂ ((win3_4.rect_emb_val t _ (0 : Fin 2)).trans (row3 t l.val)) rfl))

theorem accP3_apply (k : Fin 128) (g : Fin 256) : ∀ n, n < 10 → accP3 (F := Ideal) V c n (ix2 k g)
    = ∑ t ∈ Finset.range (n + 1), val3_block (val3_termP (V c main_v48) (V c main_v37) (V c main_v11) (V c main_arg8) (V c main_v12) k g) t :=
  fold_sum (accP3 (F := Ideal) V c) _ _
    ((congrFun (accP3_zero (F := Ideal) V c ⟨0, by rw [N3]; decide⟩ rfl) _).trans
      ((stepP3_blk V c k g _ _).trans (by rw [resP3_apply, zero_add])))
    fun n hn => (congrFun (accP3_pos (F := Ideal) V c ⟨n + 1, by rw [N3]; exact hn⟩ (Nat.succ_ne_zero n)) _).trans
      (stepP3_blk V c k g _ _)

theorem accC3_apply (g : Fin 256) : ∀ n, n < 10 → accC3 (F := Ideal) V c n (ix2 (0 : Fin 1) g)
    = ∑ t ∈ Finset.range (n + 1), val3_block (val3_termC (V c main_v12) g) t :=
  fold_sum (accC3 (F := Ideal) V c) _ _
    ((congrFun (accC3_zero (F := Ideal) V c ⟨0, by rw [N3]; decide⟩ rfl) _).trans
      ((stepC3_blk V c g _ _).trans (by rw [resC3_apply, zero_add])))
    fun n hn => (congrFun (accC3_pos (F := Ideal) V c ⟨n + 1, by rw [N3]; exact hn⟩ (Nat.succ_ne_zero n)) _).trans
      (stepC3_blk V c g _ _)

theorem last3 : 9 < cfg3.N := by rw [N3]; decide

theorem last3_of (t : Fin cfg3.N) (h : t.val % 10 = 9) : t.val = 9 := by
  have := lt_of_lt_of_eq t.isLt N3
  omega

theorem arrAt3_5 : (dat3 (F := Ideal) V c).arrAt 5 cfg3.N = accP3 (F := Ideal) V c 9 := by
  refine (dat3 (F := Ideal) V c).arrAt_eq_of_cover 5 (accP3 (F := Ideal) V c 9) (fun t hf => ?_)
    (fun i => ⟨⟨9, last3⟩, (flush3_5 ⟨9, last3⟩).mpr rfl,
      (show ((cfg3.win 5).blk ⟨9, last3⟩).view.emb i = i from emb_whole win3_5 _ (by decide) _ _ fun _ => rfl) ▸
        ((cfg3.win 5).blk ⟨9, last3⟩).view.emb_mem_set i⟩)
  show (cfg3.win 5).cut (grid3.coords t) ((dat3 (F := Ideal) V c).after 5 t) = _
  rw [after3_5, last3_of t ((flush3_5 t).mp hf)]
  generalize accP3 (F := Ideal) V c 9 = G
  exact funext fun y => congrArg G (emb_whole win3_5 t (by decide +revert) y _ fun _ => rfl).symm

theorem arrAt3_6 : (dat3 (F := Ideal) V c).arrAt 6 cfg3.N = accC3 (F := Ideal) V c 9 := by
  refine (dat3 (F := Ideal) V c).arrAt_eq_of_cover 6 (accC3 (F := Ideal) V c 9) (fun t hf => ?_)
    (fun i => ⟨⟨9, last3⟩, (flush3_6 ⟨9, last3⟩).mpr rfl,
      (show ((cfg3.win 6).blk ⟨9, last3⟩).view.emb i = i from emb_whole win3_6 _ (by decide) _ _ fun _ => rfl) ▸
        ((cfg3.win 6).blk ⟨9, last3⟩).view.emb_mem_set i⟩)
  show (cfg3.win 6).cut (grid3.coords t) ((dat3 (F := Ideal) V c).after 6 t) = _
  rw [after3_6, last3_of t ((flush3_6 t).mp hf)]
  generalize accC3 (F := Ideal) V c 9 = G
  exact funext fun y => congrArg G (emb_whole win3_6 t (by decide +revert) y _ fun _ => rfl).symm

theorem final3_pool_apply (agg hs : S50000x128.Idx → EReal) (dinv : S50000x1.Idx → EReal) (b3 : S128.Idx → EReal) (batch : S50000x1.Idx → BitVec 32)
    (h48 : V c main_v48 = agg) (h37 : V c main_v37 = hs) (h11 : V c main_v11 = dinv) (h8 : V c main_arg8 = b3) (h12 : V c main_v12 = batch)
    (k : Fin 128) (g : Fin 256) :
    (dat3 (F := Ideal) V c).arrAt 5 cfg3.N (ix2 k g)
      = ∑ i : Fin 50000, (dinv (ix2 i (0 : Fin 1)) * (agg (ix2 i k) + hs (ix2 i k)) + b3 (ix1 k))
          * (if batch (ix2 i (0 : Fin 1)) = BitVec.ofNat 32 g.val then (1 : EReal) else 0) := by
  subst h48 h37 h11 h8 h12
  rw [arrAt3_5, accP3_apply V c k g 9 (by decide), val3_blocks_total]
  rfl

theorem final3_size_apply (batch : S50000x1.Idx → BitVec 32) (h12 : V c main_v12 = batch) (g : Fin 256) :
    (dat3 (F := Ideal) V c).arrAt 6 cfg3.N (ix2 (0 : Fin 1) g)
      = ∑ i : Fin 50000, if batch (ix2 i (0 : Fin 1)) = BitVec.ofNat 32 g.val then (1 : EReal) else 0 := by
  subst h12
  rw [arrAt3_6, accC3_apply V c g 9 (by decide), val3_blocks_total]
  rfl

end Cert.KernelIdeal.Gen

end
-- ==== Proof.KI.Val4.lean ====
import proofs.«430777_j3556232921556_3_alg».proof.Proof.KI.Reg4
import proofs.«430777_j3556232921556_3_alg».proof.Proof.Spec
import proofs.«430777_j3556232921556_3_alg».proof.Proof.LibColProducts
import proofs.«430777_j3556232921556_3_alg».proof.Proof.LibRowProducts
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Gen

open Idealize.ShloMosaic Idealize.ShloMosaic.TcCoe Idealize.SL.Sem
open Idealize.ShloMosaic.ValueIdx
open Idealize.ShloMosaic.Pipeline (Dat Cfg Window)
open scoped BigOperators

theorem dot4_first : Cert.Lib.ColProducts.TransposedLhs (K := 128) (n := 256) (c := 256)
    dot_S128x256_S128x256_S256x256_0_0_1_1_n_n := ⟨rfl, rfl, rfl, rfl, rfl, rfl⟩

theorem dot4_second : Cert.Lib.RowProducts.Plain (n := 256) (K := 256) (c := 768)
    dot_S256x256_S256x768_S256x768_1_0_0_1_n_n := ⟨rfl, rfl, rfl, rfl, rfl, rfl⟩

theorem first4_ix2 (l w : FVec Ideal S128x256 .bf16) (g q : Fin 256) :
    matmul (F := Ideal) dot_S128x256_S128x256_S256x256_0_0_1_1_n_n none l w (constant S256x256 .f32 0x00000000#32) (ix2 g q)
      = ∑ k : Fin 128, l (ix2 k g) * w (ix2 k q) :=
  (Ideal.matmul_constant_zero_apply _ _ l w _).trans (dot4_first.sum_eq l w (ix2 g q))

theorem second4_ix2 (l : FVec Ideal S256x256 .bf16) (w : FVec Ideal S256x768 .bf16) (g : Fin 256) (o : Fin 768) :
    matmul (F := Ideal) dot_S256x256_S256x768_S256x768_1_0_0_1_n_n none l w (constant S256x768 .f32 0x00000000#32) (ix2 g o)
      = ∑ q : Fin 256, l (ix2 g q) * w (ix2 q o) :=
  (Ideal.matmul_constant_zero_apply _ _ l w _).trans (dot4_second.sum_eq l w (ix2 g o))

theorem k4_pay1_apply (v0 : Vec Ideal S1x256 .f32) (v6 v10 : Vec Ideal S128x256 .f32) (v13 : Vec Ideal S256 .f32)
    (v21 : Vec Ideal S256x768 .f32) (v24 : Vec Ideal S768 .f32) (g : Fin 256) (o : Fin 768) :
    k4_pay1 (F := Ideal) v0 v6 v10 v13 v21 v24 (ix2 g o)
      = (∑ q : Fin 256,
          max ((∑ k : Fin 128, Ideal.div (v6 (ix2 k g)) (max (v0 (ix2 (0 : Fin 1) g)) 1) * v10 (ix2 k q)) + v13 (ix1 q)) 0
            * v21 (ix2 q o)) + v24 (ix1 o) := by
  unfold k4_pay1
  rw [addf_apply, second4_ix2]
  simp only [truncf_apply, maximumf_apply, addf_apply, divf_apply, broadcast_apply, first4_ix2, shapeCast_self,
    broadcastTo_1b_ab_apply, shapeCast_a_1a_apply, Ideal.ofBits_def, Ideal.ofBits_zero_f32, Ideal.ofBits_one_f32]

theorem hz4_2 : (![0, 0] : Fin 2 → Nat) = fun _ => 0 := funext fun a => by fin_cases a <;> rfl
theorem hz4_1 : (![0] : Fin 1 → Nat) = fun _ => 0 := funext fun a => by fin_cases a; rfl

theorem out4_6_eq {F : FTy → Type} [FloatOps F] (x0 : Vec F S128x256 .f32) (x1 : Vec F S1x256 .f32) (x2 : Vec F S128x256 .f32)
    (x3 : Vec F S256 .f32) (x4 : Vec F S256x768 .f32) (x5 : Vec F S768 .f32) :
    out4_6 x0 x1 x2 x3 x4 x5 = k4_pay1 x1 x0 x2 x3 x4 x5 := by
  unfold out4_6
  rw [View.canon_unit_zero hz4_2]
  simp only [View.ld_unit_zero (S := S128x256) hz4_2, View.ld_unit_zero (S := S1x256) hz4_2,
    View.ld_unit_zero (S := S256x768) hz4_2, View.ld_unit_zero (S := S256) hz4_1, View.ld_unit_zero (S := S768) hz4_1]

variable (V : (c : Dev nD) → (b : Ref sig .tc) → Buf (Elt Ideal) ((c : Thread nD τ).loc b))

-- A block whose index is zero on every axis sits in its array at its own coordinates.
private theorem emb_whole {G : Pipeline.Grid} (w : Window sig G) (t : Fin G.N) (h : ∀ a, w.index t a = 0)
    (y : (w.xblock (G.coords t)).Idx) (z : w.shape.Idx) (hz : ∀ a, (y a).val = (z a).val) : (w.rect t).emb y = z :=
  funext fun a => Fin.ext ((w.rect_emb_val_of_index_zero t a (h a) y).trans (hz a))

def G4 (c : Dev nD) : S256x768.Idx → EReal :=
  Cert.Spec.headK (V c main_v49_0) (fun g' => V c main_v49_1 (ix2 (0 : Fin 1) g')) (V c main_arg9) (V c main_arg10)
    (V c main_arg11) (V c main_arg12)

theorem flushed4_6_eq (c : Dev nD) (t : Fin cfg4.N) :
    (dat4 (F := Ideal) V c).flushed 6 t = ((cfg4.win 6).blk t).view.read (Elt Ideal) (G4 V c) := by
  show (cfg4.win 6).cut (grid4.coords t) ((dat4 (F := Ideal) V c).after 6 t) = _
  rw [after4_6, out4_6_eq]
  funext j
  obtain ⟨g, o, rfl⟩ : ∃ (g : Fin 256) (o : Fin 768), j = ix2 g o := ⟨j 0, j 1, eq_ix2 j⟩
  show k4_pay1 (F := Ideal) (iblk4 V c 1 t) (iblk4 V c 0 t) (iblk4 V c 2 t) (iblk4 V c 3 t) (iblk4 V c 4 t) (iblk4 V c 5 t) (ix2 g o)
    = G4 V c (((cfg4.win 6).blk t).view.emb (ix2 g o))
  rw [show iblk4 (F := Ideal) V c 0 t = V c main_v49_0 from
      funext fun y => congrArg (V c main_v49_0) (emb_whole win4_0 t (by decide +revert) y y fun _ => rfl),
    show iblk4 (F := Ideal) V c 1 t = V c main_v49_1 from
      funext fun y => congrArg (V c main_v49_1) (emb_whole win4_1 t (by decide +revert) y y fun _ => rfl),
    show iblk4 (F := Ideal) V c 2 t = V c main_arg9 from
      funext fun y => congrArg (V c main_arg9) (emb_whole win4_2 t (by decide +revert) y y fun _ => rfl),
    show iblk4 (F := Ideal) V c 3 t = V c main_arg10 from
      funext fun y => congrArg (V c main_arg10) (emb_whole win4_3 t (by decide +revert) y y fun _ => rfl),
    show iblk4 (F := Ideal) V c 4 t = V c main_arg11 from
      funext fun y => congrArg (V c main_arg11) (emb_whole win4_4 t (by decide +revert) y y fun _ => rfl),
    show iblk4 (F := Ideal) V c 5 t = V c main_arg12 from
      funext fun y => congrArg (V c main_arg12) (emb_whole win4_5 t (by decide +revert) y y fun _ => rfl),
    show ((cfg4.win 6).blk t).view.emb (ix2 g o) = ix2 g o from emb_whole win4_6 t (by decide +revert) _ _ fun _ => rfl,
    k4_pay1_apply]
  rfl

theorem cover4_out (i : S256x768.Idx) :
    ∃ t : Fin cfg4.N, (cfg4.win 6).flush t = true ∧ i ∈ ((cfg4.win 6).blk t).view.set :=
  ⟨t4_0, flush4_6 t4_0, (show ((cfg4.win 6).blk t4_0).view.emb i = i from emb_whole win4_6 t4_0 (by decide) _ _ fun _ => rfl) ▸
    ((cfg4.win 6).blk t4_0).view.emb_mem_set i⟩

theorem final4_apply_of (c : Dev nD) (pt : S128x256.Idx → EReal) (sz : S1x256.Idx → EReal) (w1 : S128x256.Idx → EReal)
    (b1 : S256.Idx → EReal) (w2 : S256x768.Idx → EReal) (b2 : S768.Idx → EReal)
    (hpt : V c main_v49_0 = pt) (hsz : V c main_v49_1 = sz) (hw1 : V c main_arg9 = w1) (hb1 : V c main_arg10 = b1)
    (hw2 : V c main_arg11 = w2) (hb2 : V c main_arg12 = b2) (g : Fin 256) (o : Fin 768) :
    (dat4 (F := Ideal) V c).arrAt 6 cfg4.N (ix2 g o)
      = Cert.Spec.headK pt (fun g' => sz (ix2 (0 : Fin 1) g')) w1 b1 w2 b2 (ix2 g o) := by
  subst hpt hsz hw1 hb1 hw2 hb2
  exact congrFun ((dat4 (F := Ideal) V c).arrAt_eq_of_cover 6 _ (fun t _ => flushed4_6_eq V c t) cover4_out) (ix2 g o)

end Cert.KernelIdeal.Gen

end
-- ==== Proof.KI.Val.lean ====
import proofs.«430777_j3556232921556_3_alg».proof.Proof.KI.Fold
import proofs.«430777_j3556232921556_3_alg».proof.Proof.KI.Host1
import proofs.«430777_j3556232921556_3_alg».proof.Proof.KI.Host2
import proofs.«430777_j3556232921556_3_alg».proof.Proof.KI.Host3
import proofs.«430777_j3556232921556_3_alg».proof.Proof.KI.Val1
import proofs.«430777_j3556232921556_3_alg».proof.Proof.KI.Val2
import proofs.«430777_j3556232921556_3_alg».proof.Proof.KI.Val3
import proofs.«430777_j3556232921556_3_alg».proof.Proof.KI.Val4

noncomputable section

namespace Cert.KernelIdeal.Gen

open Idealize.ShloMosaic Idealize.ShloMosaic.TcCoe Idealize.ShloMosaic.ValueIdx Idealize.SL.Sem Cert.Spec

variable (m : (ℓ : Loc nD τ sig) → Buf (Elt Ideal) ℓ) (c : Dev nD)

abbrev aX : Arr2 50000 128 := m ((c.tc : Thread nD τ).loc main_arg0)

abbrev aE : Edges := m ((c.tc : Thread nD τ).loc main_arg1)

abbrev aB : Groups := m ((c.tc : Thread nD τ).loc main_arg2)
abbrev aW1 : Arr2 128 128 := m ((c.tc : Thread nD τ).loc main_arg3)
abbrev ab1 : Arr1 128 := m ((c.tc : Thread nD τ).loc main_arg4)
abbrev aW2 : Arr2 128 128 := m ((c.tc : Thread nD τ).loc main_arg5)
abbrev ab2 : Arr1 128 := m ((c.tc : Thread nD τ).loc main_arg6)
abbrev aW3 : Arr2 128 128 := m ((c.tc : Thread nD τ).loc main_arg7)
abbrev ab3 : Arr1 128 := m ((c.tc : Thread nD τ).loc main_arg8)
abbrev aWm1 : Arr2 128 256 := m ((c.tc : Thread nD τ).loc main_arg9)
abbrev abm1 : Arr1 256 := m ((c.tc : Thread nD τ).loc main_arg10)
abbrev aWm2 : Arr2 256 768 := m ((c.tc : Thread nD τ).loc main_arg11)
abbrev abm2 : Arr1 768 := m ((c.tc : Thread nD τ).loc main_arg12)

def kerOut : Arr2 256 768 :=
  outK (aX m c) (aE m c) (aB m c) (aW1 m c) (ab1 m c) (aW2 m c) (ab2 m c) (aW3 m c) (ab3 m c) (aWm1 m c) (abm1 m c) (aWm2 m c) (abm2 m c)

def hs1 : Arr2 50000 128 := scaleK (aE m c) (lin (aX m c) (aW1 m c))
def agg1 : Arr2 50000 128 := aggK (aE m c) (hs1 m c)
def hh1 : Arr2 50000 128 := relu (finK (aE m c) (hs1 m c) (agg1 m c) (ab1 m c))
def hs2 : Arr2 50000 128 := scaleK (aE m c) (lin (hh1 m c) (aW2 m c))
def agg2 : Arr2 50000 128 := aggK (aE m c) (hs2 m c)
def hh2 : Arr2 50000 128 := relu (finK (aE m c) (hs2 m c) (agg2 m c) (ab2 m c))
def hs3 : Arr2 50000 128 := scaleK (aE m c) (lin (hh2 m c) (aW3 m c))
def agg3 : Arr2 50000 128 := aggK (aE m c) (hs3 m c)
def hh3 : Arr2 50000 128 := finK (aE m c) (hs3 m c) (agg3 m c) (ab3 m c)

-- The buffers that nothing after the first host stretch writes.
abbrev Kept (r : Ref sig .tc) : Prop :=
  r ≠ main_v13 ∧ r ∉ hostOps1_W ∧ r ≠ main_v25 ∧ r ∉ hostOps2_W ∧ r ≠ main_v37 ∧ r ∉ hostOps3_W ∧ r ≠ main_v49_0 ∧ r ≠ main_v49_1

section
variable (r : Ref sig .tc) (h : Kept r)
include h

theorem keep2 : X2 m c (Proc.devRef .tc r) = X1 m c (Proc.devRef .tc r) := X2_of_ne m c r h.1
theorem keep3 : X3 m c (Proc.devRef .tc r) = X1 m c (Proc.devRef .tc r) :=
  (StableHlo.after_of_writes_sub hostOps1 _ hostOps1_writes h.2.1).trans (keep2 m c r h)
theorem keep4 : X4 m c (Proc.devRef .tc r) = X1 m c (Proc.devRef .tc r) := (X4_of_ne m c r h.2.2.1).trans (keep3 m c r h)
theorem keep5 : X5 m c (Proc.devRef .tc r) = X1 m c (Proc.devRef .tc r) :=
  (StableHlo.after_of_writes_sub hostOps2 _ hostOps2_writes h.2.2.2.1).trans (keep4 m c r h)
theorem keep6 : X6 m c (Proc.devRef .tc r) = X1 m c (Proc.devRef .tc r) := (X6_of_ne m c r h.2.2.2.2.1).trans (keep5 m c r h)
theorem keep7 : X7 m c (Proc.devRef .tc r) = X1 m c (Proc.devRef .tc r) :=
  (StableHlo.after_of_writes_sub hostOps3 _ hostOps3_writes h.2.2.2.2.2.1).trans (keep6 m c r h)
theorem keep8 : X8 m c (Proc.devRef .tc r) = X1 m c (Proc.devRef .tc r) :=
  (X8_of_ne m c r h.2.2.2.2.2.2.1 h.2.2.2.2.2.2.2).trans (keep7 m c r h)

end

theorem X1_arg (r : Ref sig .tc) (h : r ∉ hostOps0_W) : X1 m c (Proc.devRef .tc r) = m ((c : Thread nD τ).loc r) :=
  (V1_of m c r h).trans rfl

theorem ext_ix1 {n : ℕ} {α : Type} {f g : (⟨1, ![n]⟩ : Shape).Idx → α} (h : ∀ e, f (ix1 e) = g (ix1 e)) : f = g :=
  funext fun j => by rw [eq_ix1 j]; exact h _

-- Two functions on a rank-2 index set agree if they agree at every (p, q).
theorem ext_ix2 {n k : ℕ} {α : Type} {f g : (⟨2, ![n, k]⟩ : Shape).Idx → α} (h : ∀ p q, f (ix2 p q) = g (ix2 p q)) : f = g :=
  funext fun j => by rw [eq_ix2 j]; exact h _ _

theorem ext_col {n : ℕ} {α : Type} {f g : (⟨2, ![n, 1]⟩ : Shape).Idx → α} (h : ∀ p, f (ix2 p (0 : Fin 1)) = g (ix2 p (0 : Fin 1))) : f = g :=
  ext_ix2 fun p q => by rw [Subsingleton.elim q 0]; exact h p

theorem X1_src_arr : (X1 m c (Proc.devRef .tc main_v1) : S800000.Idx → BitVec 32) = fun j => src (aE m c) (j 0) :=
  ext_ix1 (host0_src (V0 m c))
theorem X1_dst_arr : (X1 m c (Proc.devRef .tc main_v3) : S800000.Idx → BitVec 32) = fun j => dst (aE m c) (j 0) :=
  ext_ix1 (host0_dst (V0 m c))
theorem X1_dinv (p : Fin 50000) : X1 m c (Proc.devRef .tc main_v11) (ix2 p (0 : Fin 1)) = dinvK (aE m c) p := host0_dinv (V0 m c) p
theorem X1_dinv_arr : (X1 m c (Proc.devRef .tc main_v11) : S50000x1.Idx → EReal) = fun j => dinvK (aE m c) (j 0) :=
  ext_col (X1_dinv m c)
theorem X1_batch_arr : (X1 m c (Proc.devRef .tc main_v12) : S50000x1.Idx → BitVec 32) = fun j => aB m c (ix1 (j 0)) :=
  ext_col (host0_batch (V0 m c))

theorem X7_batch : (X7 m c (Proc.devRef .tc main_v12) : S50000x1.Idx → BitVec 32) = fun j => aB m c (ix1 (j 0)) :=
  (keep7 m c main_v12 (by decide)).trans (X1_batch_arr m c)

theorem hs1_arr : (X2 m c (Proc.devRef .tc main_v13) : S50000x128.Idx → EReal) = hs1 m c :=
  ext_ix2 fun p k => by
    rw [X2_out]; unfold o2
    rw [final0_apply (fun c b => X1 m c b) c _ _ _ rfl rfl rfl p k, X1_arg m c main_arg0 (by decide),
      X1_arg m c main_arg3 (by decide), X1_dinv]
    rfl

theorem scale_next (ei : Edges) (hs agg : Arr2 50000 128) (b : Arr1 128) (W : Arr2 128 128) (p : Fin 50000) (k : Fin 128) :
    (∑ q : Fin 128, max (dinvK ei p * (agg (ix2 p q) + hs (ix2 p q)) + b (ix1 q)) 0 * W (ix2 q k)) * dinvK ei p
      = scaleK ei (lin (relu (finK ei hs agg b)) W) (ix2 p k) := rfl

theorem agg1_arr : (X3 m c (Proc.devRef .tc main_v24) : S50000x128.Idx → EReal) = agg1 m c :=
  ext_ix2 fun p k => (host1_agg (X2 m c) (hs1 m c) (fun j => src (aE m c) (j 0)) (fun j => dst (aE m c) (j 0))
    (hs1_arr m c)
      ((keep2 m c main_v1 (by decide)).trans (X1_src_arr m c))
      ((keep2 m c main_v3 (by decide)).trans (X1_dst_arr m c)) p k).trans rfl

theorem hs2_arr : (X4 m c (Proc.devRef .tc main_v25) : S50000x128.Idx → EReal) = hs2 m c :=
  ext_ix2 fun p k => by
    rw [X4_out]; unfold o4
    exact (final1_apply (fun c b => X3 m c b) c (agg1 m c) (hs1 m c) (fun j => dinvK (aE m c) (j 0)) (ab1 m c) (aW2 m c)
      (agg1_arr m c)
      ((StableHlo.after_of_writes_sub hostOps1 _ hostOps1_writes (by decide)).trans (hs1_arr m c))
      ((keep3 m c main_v11 (by decide)).trans (X1_dinv_arr m c))
      ((keep3 m c main_arg4 (by decide)).trans (X1_arg m c main_arg4 (by decide)))
      ((keep3 m c main_arg5 (by decide)).trans (X1_arg m c main_arg5 (by decide))) p k).trans
      (scale_next (aE m c) (hs1 m c) (agg1 m c) (ab1 m c) (aW2 m c) p k)

theorem agg2_arr : (X5 m c (Proc.devRef .tc main_v36) : S50000x128.Idx → EReal) = agg2 m c :=
  ext_ix2 fun p k => (host2_agg (X4 m c) (hs2 m c) (fun j => src (aE m c) (j 0)) (fun j => dst (aE m c) (j 0))
    (hs2_arr m c)
      ((keep4 m c main_v1 (by decide)).trans (X1_src_arr m c))
      ((keep4 m c main_v3 (by decide)).trans (X1_dst_arr m c)) p k).trans rfl

theorem hs3_arr : (X6 m c (Proc.devRef .tc main_v37) : S50000x128.Idx → EReal) = hs3 m c :=
  ext_ix2 fun p k => by
    rw [X6_out]; unfold o6
    exact (final2_apply (fun c b => X5 m c b) c (agg2 m c) (hs2 m c) (fun j => dinvK (aE m c) (j 0)) (ab2 m c) (aW3 m c)
      (agg2_arr m c)
      ((StableHlo.after_of_writes_sub hostOps2 _ hostOps2_writes (by decide)).trans (hs2_arr m c))
      ((keep5 m c main_v11 (by decide)).trans (X1_dinv_arr m c))
      ((keep5 m c main_arg6 (by decide)).trans (X1_arg m c main_arg6 (by decide)))
      ((keep5 m c main_arg7 (by decide)).trans (X1_arg m c main_arg7 (by decide))) p k).trans
      (scale_next (aE m c) (hs2 m c) (agg2 m c) (ab2 m c) (aW3 m c) p k)

theorem agg3_arr : (X7 m c (Proc.devRef .tc main_v48) : S50000x128.Idx → EReal) = agg3 m c :=
  ext_ix2 fun p k => (host3_agg (X6 m c) (hs3 m c) (fun j => src (aE m c) (j 0)) (fun j => dst (aE m c) (j 0))
    (hs3_arr m c)
      ((keep6 m c main_v1 (by decide)).trans (X1_src_arr m c))
      ((keep6 m c main_v3 (by decide)).trans (X1_dst_arr m c)) p k).trans rfl

theorem pool_arr : (X8 m c (Proc.devRef .tc main_v49_0) : S128x256.Idx → EReal) = poolK (aB m c) (hh3 m c) :=
  ext_ix2 fun k g => by
    rw [X8_out_a]; unfold o8a
    exact (final3_pool_apply (fun c b => X7 m c b) c (agg3 m c) (hs3 m c) (fun j => dinvK (aE m c) (j 0)) (ab3 m c)
      (fun j => aB m c (ix1 (j 0))) (agg3_arr m c)
      ((StableHlo.after_of_writes_sub hostOps3 _ hostOps3_writes (by decide)).trans (hs3_arr m c))
      ((keep7 m c main_v11 (by decide)).trans (X1_dinv_arr m c))
      ((keep7 m c main_arg8 (by decide)).trans (X1_arg m c main_arg8 (by decide))) (X7_batch m c) k g).trans rfl

theorem size_arr : (X8 m c (Proc.devRef .tc main_v49_1) : S1x256.Idx → EReal) = fun i => sizeK (aB m c) (i 1) :=
  ext_ix2 fun z g => by
    obtain rfl : z = 0 := Subsingleton.elim _ _
    rw [X8_out_b]; unfold o8b
    exact (final3_size_apply (fun c b => X7 m c b) c (fun j => aB m c (ix1 (j 0))) (X7_batch m c) g).trans rfl

theorem kernel_value : o9 (F := Ideal) m c = kerOut m c :=
  ext_ix2 fun g o => by
  unfold o9
  exact (final4_apply_of (fun c b => X8 m c b) c (poolK (aB m c) (hh3 m c)) (fun i => sizeK (aB m c) (i 1)) (aWm1 m c) (abm1 m c) (aWm2 m c) (abm2 m c)
    (pool_arr m c) (size_arr m c)
      ((keep8 m c main_arg9 (by decide)).trans (X1_arg m c main_arg9 (by decide)))
      ((keep8 m c main_arg10 (by decide)).trans (X1_arg m c main_arg10 (by decide)))
      ((keep8 m c main_arg11 (by decide)).trans (X1_arg m c main_arg11 (by decide)))
      ((keep8 m c main_arg12 (by decide)).trans (X1_arg m c main_arg12 (by decide))) g o).trans rfl

end Cert.KernelIdeal.Gen

end
-- ==== Proof.Ref.ReadP.lean ====
import proofs.«430777_j3556232921556_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S50000x128, .f32⟩ : BufTy).Contents (Elt F))
  (x1 : (⟨S2x800000, .i32⟩ : BufTy).Contents (Elt F))
  (x2 : (⟨S50000, .i32⟩ : BufTy).Contents (Elt F))
  (x3 : (⟨S128x128, .f32⟩ : BufTy).Contents (Elt F))
  (x4 : (⟨S128, .f32⟩ : BufTy).Contents (Elt F))
  (x5 : (⟨S128x128, .f32⟩ : BufTy).Contents (Elt F))
  (x6 : (⟨S128, .f32⟩ : BufTy).Contents (Elt F))
  (x7 : (⟨S128x128, .f32⟩ : BufTy).Contents (Elt F))
  (x8 : (⟨S128, .f32⟩ : BufTy).Contents (Elt F))
  (x9 : (⟨S128x256, .f32⟩ : BufTy).Contents (Elt F))
  (x10 : (⟨S256, .f32⟩ : BufTy).Contents (Elt F))
  (x11 : (⟨S256x768, .f32⟩ : BufTy).Contents (Elt F))
  (x12 : (⟨S768, .f32⟩ : BufTy).Contents (Elt F))

def val_main_v0 : (⟨S1x800000, .i32⟩ : BufTy).Contents (Elt F) :=
  extractStridedSlice S1x800000 ![0, 0] (x1) slices_S2x800000_S1x800000_0_0
abbrev idx_main_v0 (i : S1x800000.Idx) : S2x800000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x800000.Idx) :
    val_main_v0 (F := F) x1 i = x1 (idx_main_v0 i) := by
  unfold val_main_v0
  exact extractStridedSlice_apply ![0, 0] x1 slices_S2x800000_S1x800000_0_0 i (idx_main_v0 i) (fun a => match a with
    | ⟨0, _⟩ => by show (i 0).val = 0 + (i 0).val; omega
    | ⟨1, _⟩ => by show (i 1).val = 0 + (i 1).val; omega)

def val_main_v1 : (⟨S800000, .i32⟩ : BufTy).Contents (Elt F) :=
  shapeCast _ (val_main_v0 (F := F) x1) shapeCasts_S1x800000_S800000
abbrev idx_main_v1 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩
theorem val_main_v1_apply (i : S800000.Idx) :
    val_main_v1 (F := F) x1 i = val_main_v0 (F := F) x1 (idx_main_v1 i) := by
  unfold val_main_v1
  generalize val_main_v0 (F := F) x1 = y
  exact shapeCast_apply y shapeCasts_S1x800000_S800000 i (idx_main_v1 i)
    (by rewrite [Shape.rowMajor_val_two, Shape.rowMajor_val_one]; have h0 : (i 0).val < 800000 := (i 0).isLt; show 0 * 800000 + ((i 0).val) % 800000 = (i 0).val; omega)

def val_main_v2 : (⟨S1x800000, .i32⟩ : BufTy).Contents (Elt F) :=
  extractStridedSlice S1x800000 ![1, 0] (x1) slices_S2x800000_S1x800000_1_0
abbrev idx_main_v2 (i : S1x800000.Idx) : S2x800000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x800000.Idx) :
    val_main_v2 (F := F) x1 i = x1 (idx_main_v2 i) := by
  unfold val_main_v2
  exact extractStridedSlice_apply ![1, 0] x1 slices_S2x800000_S1x800000_1_0 i (idx_main_v2 i) (fun a => match a with
    | ⟨0, _⟩ => by show 1 + (i 0).val = 1 + (i 0).val; omega
    | ⟨1, _⟩ => by show (i 1).val = 0 + (i 1).val; omega)

def val_main_v3 : (⟨S800000, .i32⟩ : BufTy).Contents (Elt F) :=
  shapeCast _ (val_main_v2 (F := F) x1) shapeCasts_S1x800000_S800000
abbrev idx_main_v3 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩
theorem val_main_v3_apply (i : S800000.Idx) :
    val_main_v3 (F := F) x1 i = val_main_v2 (F := F) x1 (idx_main_v3 i) := by
  unfold val_main_v3
  generalize val_main_v2 (F := F) x1 = y
  exact shapeCast_apply y shapeCasts_S1x800000_S800000 i (idx_main_v3 i)
    (by rewrite [Shape.rowMajor_val_two, Shape.rowMajor_val_one]; have h0 : (i 0).val < 800000 := (i 0).isLt; show 0 * 800000 + ((i 0).val) % 800000 = (i 0).val; omega)

def val_main_v4 : (⟨S50000x128, .f32⟩ : BufTy).Contents (Elt F) :=
  Host.dotGeneral dot_S50000x128_S128x128_S50000x128_1_0_0_1_n_n none (x0) (x3)

def val_main_v5 : (⟨S50000, .i32⟩ : BufTy).Contents (Elt F) :=
  iotaInDim S50000 32 0

def val_main_v6 : (⟨S850000, .i32⟩ : BufTy).Contents (Elt F) :=
  concatenate S850000 0 [⟨S800000, (val_main_v1 (F := F) x1)⟩, ⟨S50000, (val_main_v5 (F := F))⟩] concatenates_S800000_S50000_S850000_d0

def val_main_v7 : (⟨S850000, .i32⟩ : BufTy).Contents (Elt F) :=
  concatenate S850000 0 [⟨S800000, (val_main_v3 (F := F) x1)⟩, ⟨S50000, (val_main_v5 (F := F))⟩] concatenates_S800000_S50000_S850000_d0

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v8 : (⟨S850000, .f32⟩ : BufTy).Contents (Elt F) :=
  broadcastInDim S850000 ![] bcast_S_S850000 (val_main_cst (F := F))
abbrev idx_main_v8 (i : S850000.Idx) : S_.Idx := fun a => a.elim0
theorem val_main_v8_apply (i : S850000.Idx) :
    val_main_v8 (F := F) i = val_main_cst (F := F) (idx_main_v8 i) := by
  unfold val_main_v8
  generalize val_main_cst (F := F) = y
  exact broadcastInDim_apply _ bcast_S_S850000 y i (idx_main_v8 i) (fun a => a.elim0)

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v9 : (⟨S50000, .f32⟩ : BufTy).Contents (Elt F) :=
  broadcastInDim S50000 ![] bcast_S_S50000 (val_main_cst_0 (F := F))
abbrev idx_main_v9 (i : S50000.Idx) : S_.Idx := fun a => a.elim0
theorem val_main_v9_apply (i : S50000.Idx) :
    val_main_v9 (F := F) i = val_main_cst_0 (F := F) (idx_main_v9 i) := by
  unfold val_main_v9
  generalize val_main_cst_0 (F := F) = y
  exact broadcastInDim_apply _ bcast_S_S50000 y i (idx_main_v9 i) (fun a => a.elim0)

def val_main_v10 : (⟨S850000x1, .i32⟩ : BufTy).Contents (Elt F) :=
  broadcastInDim S850000x1 ![0] bcast_S850000_S850000x1_0 (val_main_v7 (F := F) x1)

def val_main_v11 : (⟨S50000, .f32⟩ : BufTy).Contents (Elt F) :=
  Host.scatterAdd scatter_S50000_S850000x1_S850000_n_0_0_1 (val_main_v9 (F := F)) (val_main_v10 (F := F) x1) (val_main_v8 (F := F))

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v12 : (⟨S50000, .f32⟩ : BufTy).Contents (Elt F) :=
  broadcastInDim S50000 ![] bcast_S_S50000 (val_main_cst_1 (F := F))
abbrev idx_main_v12 (i : S50000.Idx) : S_.Idx := fun a => a.elim0
theorem val_main_v12_apply (i : S50000.Idx) :
    val_main_v12 (F := F) i = val_main_cst_1 (F := F) (idx_main_v12 i) := by
  unfold val_main_v12
  generalize val_main_cst_1 (F := F) = y
  exact broadcastInDim_apply _ bcast_S_S50000 y i (idx_main_v12 i) (fun a => a.elim0)

def val_main_v13 : (⟨S50000, .i1⟩ : BufTy).Contents (Elt F) :=
  cmpf (F := F) .ogt (val_main_v11 (F := F) x1) (val_main_v12 (F := F))
theorem val_main_v13_apply (i : S50000.Idx) :
    val_main_v13 (F := F) x1 i = FloatOps.cmpf (F := F) .ogt (val_main_v11 (F := F) x1 i) (val_main_v12 (F := F) i) := rfl

def val_main_v14 : (⟨S50000, .f32⟩ : BufTy).Contents (Elt F) :=
  Host.rsqrt (val_main_v11 (F := F) x1)
theorem val_main_v14_apply (i : S50000.Idx) :
    val_main_v14 (F := F) x1 i = FloatOps.hostUnary .rsqrt (val_main_v11 (F := F) x1 i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

def val_main_call0_v1 : (⟨S50000, .f32⟩ : BufTy).Contents (Elt F) :=
  broadcastInDim S50000 ![] bcast_S_S50000 (val_main_call0_v0 (F := F))
abbrev idx_main_call0_v1 (i : S50000.Idx) : S_.Idx := fun a => a.elim0
theorem val_main_call0_v1_apply (i : S50000.Idx) :
    val_main_call0_v1 (F := F) i = val_main_call0_v0 (F := F) (idx_main_call0_v1 i) := by
  unfold val_main_call0_v1
  generalize val_main_call0_v0 (F := F) = y
  exact broadcastInDim_apply _ bcast_S_S50000 y i (idx_main_call0_v1 i) (fun a => a.elim0)

def val_main_v15 : (⟨S50000, .f32⟩ : BufTy).Contents (Elt F) :=
  select (val_main_v13 (F := F) x1) (val_main_v14 (F := F) x1) (val_main_call0_v1 (F := F))
theorem val_main_v15_apply (i : S50000.Idx) :
    val_main_v15 (F := F) x1 i = Scalar.select (val_main_v13 (F := F) x1 i) (val_main_v14 (F := F) x1 i) (val_main_call0_v1 (F := F) i) := rfl

def val_main_c : (⟨S_, .i32⟩ : BufTy).Contents (Elt F) :=
  constantI S_ 32 0#32
theorem val_main_c_apply (i : S_.Idx) :
    val_main_c (F := F) i = 0#32 := rfl

def val_main_v16 : (⟨S850000, .i32⟩ : BufTy).Contents (Elt F) :=
  broadcastInDim S850000 ![] bcast_S_S850000 (val_main_c (F := F))
abbrev idx_main_v16 (i : S850000.Idx) : S_.Idx := fun a => a.elim0
theorem val_main_v16_apply (i : S850000.Idx) :
    val_main_v16 (F := F) i = val_main_c (F := F) (idx_main_v16 i) := by
  unfold val_main_v16
  generalize val_main_c (F := F) = y
  exact broadcastInDim_apply _ bcast_S_S850000 y i (idx_main_v16 i) (fun a => a.elim0)

def val_main_v17 : (⟨S850000, .i1⟩ : BufTy).Contents (Elt F) :=
  cmpi .slt (val_main_v6 (F := F) x1) (val_main_v16 (F := F))
theorem val_main_v17_apply (i : S850000.Idx) :
    val_main_v17 (F := F) x1 i = IntOp.cmpi .slt (val_main_v6 (F := F) x1 i) (val_main_v16 (F := F) i) := rfl

def val_main_c_3 : (⟨S_, .i32⟩ : BufTy).Contents (Elt F) :=
  constantI S_ 32 50000#32
theorem val_main_c_3_apply (i : S_.Idx) :
    val_main_c_3 (F := F) i = 50000#32 := rfl

def val_main_v18 : (⟨S850000, .i32⟩ : BufTy).Contents (Elt F) :=
  broadcastInDim S850000 ![] bcast_S_S850000 (val_main_c_3 (F := F))
abbrev idx_main_v18 (i : S850000.Idx) : S_.Idx := fun a => a.elim0
theorem val_main_v18_apply (i : S850000.Idx) :
    val_main_v18 (F := F) i = val_main_c_3 (F := F) (idx_main_v18 i) := by
  unfold val_main_v18
  generalize val_main_c_3 (F := F) = y
  exact broadcastInDim_apply _ bcast_S_S850000 y i (idx_main_v18 i) (fun a => a.elim0)

def val_main_v19 : (⟨S850000, .i32⟩ : BufTy).Contents (Elt F) :=
  addi (val_main_v6 (F := F) x1) (val_main_v18 (F := F))
theorem val_main_v19_apply (i : S850000.Idx) :
    val_main_v19 (F := F) x1 i = IntOp.addi (val_main_v6 (F := F) x1 i) (val_main_v18 (F := F) i) := rfl

def val_main_v20 : (⟨S850000, .i32⟩ : BufTy).Contents (Elt F) :=
  select (val_main_v17 (F := F) x1) (val_main_v19 (F := F) x1) (val_main_v6 (F := F) x1)
theorem val_main_v20_apply (i : S850000.Idx) :
    val_main_v20 (F := F) x1 i = Scalar.select (val_main_v17 (F := F) x1 i) (val_main_v19 (F := F) x1 i) (val_main_v6 (F := F) x1 i) := rfl

def val_main_v21 : (⟨S850000x1, .i32⟩ : BufTy).Contents (Elt F) :=
  broadcastInDim S850000x1 ![0] bcast_S850000_S850000x1_0 (val_main_v20 (F := F) x1)

def val_main_v22 : (⟨S850000, .f32⟩ : BufTy).Contents (Elt F) :=
  Host.gather gather_S50000_S850000x1_S850000_n_0_n_n_0_1_1 (val_main_v15 (F := F) x1) (val_main_v21 (F := F) x1)

def val_main_c_4 : (⟨S_, .i32⟩ : BufTy).Contents (Elt F) :=
  constantI S_ 32 0#32
theorem val_main_c_4_apply (i : S_.Idx) :
    val_main_c_4 (F := F) i = 0#32 := rfl

def val_main_v23 : (⟨S850000, .i32⟩ : BufTy).Contents (Elt F) :=
  broadcastInDim S850000 ![] bcast_S_S850000 (val_main_c_4 (F := F))
abbrev idx_main_v23 (i : S850000.Idx) : S_.Idx := fun a => a.elim0
theorem val_main_v23_apply (i : S850000.Idx) :
    val_main_v23 (F := F) i = val_main_c_4 (F := F) (idx_main_v23 i) := by
  unfold val_main_v23
  generalize val_main_c_4 (F := F) = y
  exact broadcastInDim_apply _ bcast_S_S850000 y i (idx_main_v23 i) (fun a => a.elim0)

def val_main_v24 : (⟨S850000, .i1⟩ : BufTy).Contents (Elt F) :=
  cmpi .slt (val_main_v7 (F := F) x1) (val_main_v23 (F := F))
theorem val_main_v24_apply (i : S850000.Idx) :
    val_main_v24 (F := F) x1 i = IntOp.cmpi .slt (val_main_v7 (F := F) x1 i) (val_main_v23 (F := F) i) := rfl

def val_main_c_5 : (⟨S_, .i32⟩ : BufTy).Contents (Elt F) :=
  constantI S_ 32 50000#32
theorem val_main_c_5_apply (i : S_.Idx) :
    val_main_c_5 (F := F) i = 50000#32 := rfl

def val_main_v25 : (⟨S850000, .i32⟩ : BufTy).Contents (Elt F) :=
  broadcastInDim S850000 ![] bcast_S_S850000 (val_main_c_5 (F := F))
abbrev idx_main_v25 (i : S850000.Idx) : S_.Idx := fun a => a.elim0
theorem val_main_v25_apply (i : S850000.Idx) :
    val_main_v25 (F := F) i = val_main_c_5 (F := F) (idx_main_v25 i) := by
  unfold val_main_v25
  generalize val_main_c_5 (F := F) = y
  exact broadcastInDim_apply _ bcast_S_S850000 y i (idx_main_v25 i) (fun a => a.elim0)

def val_main_v26 : (⟨S850000, .i32⟩ : BufTy).Contents (Elt F) :=
  addi (val_main_v7 (F := F) x1) (val_main_v25 (F := F))
theorem val_main_v26_apply (i : S850000.Idx) :
    val_main_v26 (F := F) x1 i = IntOp.addi (val_main_v7 (F := F) x1 i) (val_main_v25 (F := F) i) := rfl

def val_main_v27 : (⟨S850000, .i32⟩ : BufTy).Contents (Elt F) :=
  select (val_main_v24 (F := F) x1) (val_main_v26 (F := F) x1) (val_main_v7 (F := F) x1)
theorem val_main_v27_apply (i : S850000.Idx) :
    val_main_v27 (F := F) x1 i = Scalar.select (val_main_v24 (F := F) x1 i) (val_main_v26 (F := F) x1 i) (val_main_v7 (F := F) x1 i) := rfl

def val_main_v28 : (⟨S850000x1, .i32⟩ : BufTy).Contents (Elt F) :=
  broadcastInDim S850000x1 ![0] bcast_S850000_S850000x1_0 (val_main_v27 (F := F) x1)

def val_main_v29 : (⟨S850000, .f32⟩ : BufTy).Contents (Elt F) :=
  Host.gather gather_S50000_S850000x1_S850000_n_0_n_n_0_1_1 (val_main_v15 (F := F) x1) (val_main_v28 (F := F) x1)

def val_main_v30 : (⟨S850000, .f32⟩ : BufTy).Contents (Elt F) :=
  mulf (val_main_v22 (F := F) x1) (val_main_v29 (F := F) x1)
theorem val_main_v30_apply (i : S850000.Idx) :
    val_main_v30 (F := F) x1 i = FloatOps.mulf (val_main_v22 (F := F) x1 i) (val_main_v29 (F := F) x1 i) := rfl

def val_main_c_6 : (⟨S_, .i32⟩ : BufTy).Contents (Elt F) :=
  constantI S_ 32 0#32
theorem val_main_c_6_apply (i : S_.Idx) :
    val_main_c_6 (F := F) i = 0#32 := rfl

def val_main_v31 : (⟨S850000, .i32⟩ : BufTy).Contents (Elt F) :=
  broadcastInDim S850000 ![] bcast_S_S850000 (val_main_c_6 (F := F))
abbrev idx_main_v31 (i : S850000.Idx) : S_.Idx := fun a => a.elim0
theorem val_main_v31_apply (i : S850000.Idx) :
    val_main_v31 (F := F) i = val_main_c_6 (F := F) (idx_main_v31 i) := by
  unfold val_main_v31
  generalize val_main_c_6 (F := F) = y
  exact broadcastInDim_apply _ bcast_S_S850000 y i (idx_main_v31 i) (fun a => a.elim0)

def val_main_v32 : (⟨S850000, .i1⟩ : BufTy).Contents (Elt F) :=
  cmpi .slt (val_main_v6 (F := F) x1) (val_main_v31 (F := F))
theorem val_main_v32_apply (i : S850000.Idx) :
    val_main_v32 (F := F) x1 i = IntOp.cmpi .slt (val_main_v6 (F := F) x1 i) (val_main_v31 (F := F) i) := rfl

def val_main_c_7 : (⟨S_, .i32⟩ : BufTy).Contents (Elt F) :=
  constantI S_ 32 50000#32
theorem val_main_c_7_apply (i : S_.Idx) :
    val_main_c_7 (F := F) i = 50000#32 := rfl

def val_main_v33 : (⟨S850000, .i32⟩ : BufTy).Contents (Elt F) :=
  broadcastInDim S850000 ![] bcast_S_S850000 (val_main_c_7 (F := F))
abbrev idx_main_v33 (i : S850000.Idx) : S_.Idx := fun a => a.elim0
theorem val_main_v33_apply (i : S850000.Idx) :
    val_main_v33 (F := F) i = val_main_c_7 (F := F) (idx_main_v33 i) := by
  unfold val_main_v33
  generalize val_main_c_7 (F := F) = y
  exact broadcastInDim_apply _ bcast_S_S850000 y i (idx_main_v33 i) (fun a => a.elim0)

def val_main_v34 : (⟨S850000, .i32⟩ : BufTy).Contents (Elt F) :=
  addi (val_main_v6 (F := F) x1) (val_main_v33 (F := F))
theorem val_main_v34_apply (i : S850000.Idx) :
    val_main_v34 (F := F) x1 i = IntOp.addi (val_main_v6 (F := F) x1 i) (val_main_v33 (F := F) i) := rfl

def val_main_v35 : (⟨S850000, .i32⟩ : BufTy).Contents (Elt F) :=
  select (val_main_v32 (F := F) x1) (val_main_v34 (F := F) x1) (val_main_v6 (F := F) x1)
theorem val_main_v35_apply (i : S850000.Idx) :
    val_main_v35 (F := F) x1 i = Scalar.select (val_main_v32 (F := F) x1 i) (val_main_v34 (F := F) x1 i) (val_main_v6 (F := F) x1 i) := rfl

def val_main_v36 : (⟨S850000x1, .i32⟩ : BufTy).Contents (Elt F) :=
  broadcastInDim S850000x1 ![0] bcast_S850000_S850000x1_0 (val_main_v35 (F := F) x1)

def val_main_v37 : (⟨S850000x128, .f32⟩ : BufTy).Contents (Elt F) :=
  Host.gather gather_S50000x128_S850000x1_S850000x128_1_0_n_n_0_1_1128 (val_main_v4 (F := F) x0 x3) (val_main_v36 (F := F) x1)

def val_main_v38 : (⟨S850000x1, .f32⟩ : BufTy).Contents (Elt F) :=
  broadcastInDim S850000x1 ![0] bcast_S850000_S850000x1_0 (val_main_v30 (F := F) x1)

def val_main_v39 : (⟨S850000x128, .f32⟩ : BufTy).Contents (Elt F) :=
  broadcastInDim S850000x128 ![0, 1] bcast_S850000x1_S850000x128_0_1 (val_main_v38 (F := F) x1)
abbrev idx_main_v39 (i : S850000x128.Idx) : S850000x1.Idx := fun a => match a with
  | ⟨0, _⟩ => ⟨(i 0).val, (i 0).isLt⟩
  | ⟨1, _⟩ => ⟨0, Nat.one_pos⟩
theorem val_main_v39_apply (i : S850000x128.Idx) :
    val_main_v39 (F := F) x1 i = val_main_v38 (F := F) x1 (idx_main_v39 i) := by
  unfold val_main_v39
  generalize val_main_v38 (F := F) x1 = y
  exact broadcastInDim_apply _ bcast_S850000x1_S850000x128_0_1 y i (idx_main_v39 i) (fun a => match a with
    | ⟨0, _⟩ => by show (i 0).val = if (850000 : Nat) = 1 then 0 else (i 0).val; rw [if_neg (by decide)]
    | ⟨1, _⟩ => by show 0 = if (1 : Nat) = 1 then 0 else (i 1).val; rw [if_pos rfl])

def val_main_v40 : (⟨S850000x128, .f32⟩ : BufTy).Contents (Elt F) :=
  mulf (val_main_v37 (F := F) x0 x1 x3) (val_main_v39 (F := F) x1)
theorem val_main_v40_apply (i : S850000x128.Idx) :
    val_main_v40 (F := F) x0 x1 x3 i = FloatOps.mulf (val_main_v37 (F := F) x0 x1 x3 i) (val_main_v39 (F := F) x1 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v41 : (⟨S50000x128, .f32⟩ : BufTy).Contents (Elt F) :=
  broadcastInDim S50000x128 ![] bcast_S_S50000x128 (val_main_cst_8 (F := F))
abbrev idx_main_v41 (i : S50000x128.Idx) : S_.Idx := fun a => a.elim0
theorem val_main_v41_apply (i : S50000x128.Idx) :
    val_main_v41 (F := F) i = val_main_cst_8 (F := F) (idx_main_v41 i) := by
  unfold val_main_v41
  generalize val_main_cst_8 (F := F) = y
  exact broadcastInDim_apply _ bcast_S_S50000x128 y i (idx_main_v41 i) (fun a => a.elim0)

def val_main_v42 : (⟨S850000x1, .i32⟩ : BufTy).Contents (Elt F) :=
  broadcastInDim S850000x1 ![0] bcast_S850000_S850000x1_0 (val_main_v7 (F := F) x1)

def val_main_v43 : (⟨S50000x128, .f32⟩ : BufTy).Contents (Elt F) :=
  Host.scatterAdd scatter_S50000x128_S850000x1_S850000x128_1_0_0_1 (val_main_v41 (F := F)) (val_main_v42 (F := F) x1) (val_main_v40 (F := F) x0 x1 x3)

def val_main_v44 : (⟨S1x128, .f32⟩ : BufTy).Contents (Elt F) :=
  broadcastInDim S1x128 ![1] bcast_S128_S1x128_1 (x4)
abbrev idx_main_v44 (i : S1x128.Idx) : S128.Idx := fun a => match a with
  | ⟨0, _⟩ => ⟨(i 1).val, (i 1).isLt⟩
theorem val_main_v44_apply (i : S1x128.Idx) :
    val_main_v44 (F := F) x4 i = x4 (idx_main_v44 i) := by
  unfold val_main_v44
  exact broadcastInDim_apply _ bcast_S128_S1x128_1 x4 i (idx_main_v44 i) (fun a => match a with
    | ⟨0, _⟩ => by show (i 1).val = if (128 : Nat) = 1 then 0 else (i 1).val; rw [if_neg (by decide)])

def val_main_v45 : (⟨S50000x128, .f32⟩ : BufTy).Contents (Elt F) :=
  broadcastInDim S50000x128 ![0, 1] bcast_S1x128_S50000x128_0_1 (val_main_v44 (F := F) x4)
abbrev idx_main_v45 (i : S50000x128.Idx) : S1x128.Idx := fun a => match a with
  | ⟨0, _⟩ => ⟨0, Nat.one_pos⟩
  | ⟨1, _⟩ => ⟨(i 1).val, (i 1).isLt⟩
theorem val_main_v45_apply (i : S50000x128.Idx) :
    val_main_v45 (F := F) x4 i = val_main_v44 (F := F) x4 (idx_main_v45 i) := by
  unfold val_main_v45
  generalize val_main_v44 (F := F) x4 = y
  exact broadcastInDim_apply _ bcast_S1x128_S50000x128_0_1 y i (idx_main_v45 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v46 : (⟨S50000x128, .f32⟩ : BufTy).Contents (Elt F) :=
  addf (val_main_v43 (F := F) x0 x1 x3) (val_main_v45 (F := F) x4)
theorem val_main_v46_apply (i : S50000x128.Idx) :
    val_main_v46 (F := F) x0 x1 x3 x4 i = FloatOps.addf (val_main_v43 (F := F) x0 x1 x3 i) (val_main_v45 (F := F) x4 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S50000x128, .f32⟩ : BufTy).Contents (Elt F) :=
  broadcastInDim S50000x128 ![] bcast_S_S50000x128 (val_main_call1_cst (F := F))
abbrev idx_main_call1_v0 (i : S50000x128.Idx) : S_.Idx := fun a => a.elim0
theorem val_main_call1_v0_apply (i : S50000x128.Idx) :
    val_main_call1_v0 (F := F) i = val_main_call1_cst (F := F) (idx_main_call1_v0 i) := by
  unfold val_main_call1_v0
  generalize val_main_call1_cst (F := F) = y
  exact broadcastInDim_apply _ bcast_S_S50000x128 y i (idx_main_call1_v0 i) (fun a => a.elim0)

def val_main_v47 : (⟨S50000x128, .f32⟩ : BufTy).Contents (Elt F) :=
  maximumf (val_main_v46 (F := F) x0 x1 x3 x4) (val_main_call1_v0 (F := F))
theorem val_main_v47_apply (i : S50000x128.Idx) :
    val_main_v47 (F := F) x0 x1 x3 x4 i = FloatOps.maximumf (val_main_v46 (F := F) x0 x1 x3 x4 i) (val_main_call1_v0 (F := F) i) := rfl

/-- Layers 2 and 3 are layer 1's operations on the previous layer's rectified output. -/
def val_main_v90 : (⟨S50000x128, .f32⟩ : BufTy).Contents (Elt F) :=
  val_main_v46 (F := F) (val_main_v47 (F := F) x0 x1 x3 x4) x1 x5 x6

def val_main_v91 : (⟨S50000x128, .f32⟩ : BufTy).Contents (Elt F) :=
  val_main_v47 (F := F) (val_main_v47 (F := F) x0 x1 x3 x4) x1 x5 x6

def val_main_v134 : (⟨S50000x128, .f32⟩ : BufTy).Contents (Elt F) :=
  val_main_v46 (F := F) (val_main_v91 (F := F) x0 x1 x3 x4 x5 x6) x1 x7 x8

def val_main_cst_31 : (⟨S_, .f32⟩ : BufTy).Contents (Elt F) :=
  constant S_ .f32 0x00000000#32
theorem val_main_cst_31_apply (i : S_.Idx) :
    val_main_cst_31 (F := F) i = FloatOps.ofBits .f32 0x00000000#32 := rfl

def val_main_v135 : (⟨S256x128, .f32⟩ : BufTy).Contents (Elt F) :=
  broadcastInDim S256x128 ![] bcast_S_S256x128 (val_main_cst_31 (F := F))
abbrev idx_main_v135 (i : S256x128.Idx) : S_.Idx := fun a => a.elim0
theorem val_main_v135_apply (i : S256x128.Idx) :
    val_main_v135 (F := F) i = val_main_cst_31 (F := F) (idx_main_v135 i) := by
  unfold val_main_v135
  generalize val_main_cst_31 (F := F) = y
  exact broadcastInDim_apply _ bcast_S_S256x128 y i (idx_main_v135 i) (fun a => a.elim0)

def val_main_v136 : (⟨S50000x1, .i32⟩ : BufTy).Contents (Elt F) :=
  broadcastInDim S50000x1 ![0] bcast_S50000_S50000x1_0 (x2)
abbrev idx_main_v136 (i : S50000x1.Idx) : S50000.Idx := fun a => match a with
  | ⟨0, _⟩ => ⟨(i 0).val, (i 0).isLt⟩
theorem val_main_v136_apply (i : S50000x1.Idx) :
    val_main_v136 (F := F) x2 i = x2 (idx_main_v136 i) := by
  unfold val_main_v136
  exact broadcastInDim_apply _ bcast_S50000_S50000x1_0 x2 i (idx_main_v136 i) (fun a => match a with
    | ⟨0, _⟩ => by show (i 0).val = if (50000 : Nat) = 1 then 0 else (i 0).val; rw [if_neg (by decide)])

def val_main_v137 : (⟨S256x128, .f32⟩ : BufTy).Contents (Elt F) :=
  Host.scatterAdd scatter_S256x128_S50000x1_S50000x128_1_0_0_1 (val_main_v135 (F := F)) (val_main_v136 (F := F) x2) (val_main_v134 (F := F) x0 x1 x3 x4 x5 x6 x7 x8)

def val_main_cst_32 : (⟨S_, .f32⟩ : BufTy).Contents (Elt F) :=
  constant S_ .f32 0x3F800000#32
theorem val_main_cst_32_apply (i : S_.Idx) :
    val_main_cst_32 (F := F) i = FloatOps.ofBits .f32 0x3F800000#32 := rfl

def val_main_v138 : (⟨S50000, .f32⟩ : BufTy).Contents (Elt F) :=
  broadcastInDim S50000 ![] bcast_S_S50000 (val_main_cst_32 (F := F))
abbrev idx_main_v138 (i : S50000.Idx) : S_.Idx := fun a => a.elim0
theorem val_main_v138_apply (i : S50000.Idx) :
    val_main_v138 (F := F) i = val_main_cst_32 (F := F) (idx_main_v138 i) := by
  unfold val_main_v138
  generalize val_main_cst_32 (F := F) = y
  exact broadcastInDim_apply _ bcast_S_S50000 y i (idx_main_v138 i) (fun a => a.elim0)

def val_main_cst_33 : (⟨S_, .f32⟩ : BufTy).Contents (Elt F) :=
  constant S_ .f32 0x00000000#32
theorem val_main_cst_33_apply (i : S_.Idx) :
    val_main_cst_33 (F := F) i = FloatOps.ofBits .f32 0x00000000#32 := rfl

def val_main_v139 : (⟨S256, .f32⟩ : BufTy).Contents (Elt F) :=
  broadcastInDim S256 ![] bcast_S_S256 (val_main_cst_33 (F := F))
abbrev idx_main_v139 (i : S256.Idx) : S_.Idx := fun a => a.elim0
theorem val_main_v139_apply (i : S256.Idx) :
    val_main_v139 (F := F) i = val_main_cst_33 (F := F) (idx_main_v139 i) := by
  unfold val_main_v139
  generalize val_main_cst_33 (F := F) = y
  exact broadcastInDim_apply _ bcast_S_S256 y i (idx_main_v139 i) (fun a => a.elim0)

def val_main_v140 : (⟨S50000x1, .i32⟩ : BufTy).Contents (Elt F) :=
  broadcastInDim S50000x1 ![0] bcast_S50000_S50000x1_0 (x2)
abbrev idx_main_v140 (i : S50000x1.Idx) : S50000.Idx := fun a => match a with
  | ⟨0, _⟩ => ⟨(i 0).val, (i 0).isLt⟩
theorem val_main_v140_apply (i : S50000x1.Idx) :
    val_main_v140 (F := F) x2 i = x2 (idx_main_v140 i) := by
  unfold val_main_v140
  exact broadcastInDim_apply _ bcast_S50000_S50000x1_0 x2 i (idx_main_v140 i) (fun a => match a with
    | ⟨0, _⟩ => by show (i 0).val = if (50000 : Nat) = 1 then 0 else (i 0).val; rw [if_neg (by decide)])

def val_main_v141 : (⟨S256, .f32⟩ : BufTy).Contents (Elt F) :=
  Host.scatterAdd scatter_S256_S50000x1_S50000_n_0_0_1 (val_main_v139 (F := F)) (val_main_v140 (F := F) x2) (val_main_v138 (F := F))

def val_main_cst_34 : (⟨S_, .f32⟩ : BufTy).Contents (Elt F) :=
  constant S_ .f32 0x3F800000#32
theorem val_main_cst_34_apply (i : S_.Idx) :
    val_main_cst_34 (F := F) i = FloatOps.ofBits .f32 0x3F800000#32 := rfl

def val_main_call5_v0 : (⟨S_, .f32⟩ : BufTy).Contents (Elt F) :=
  id (val_main_cst_34 (F := F))
theorem val_main_call5_v0_apply (i : S_.Idx) :
    val_main_call5_v0 (F := F) i = (val_main_cst_34 (F := F) i) := rfl

def val_main_call5_v1 : (⟨S256, .f32⟩ : BufTy).Contents (Elt F) :=
  broadcastInDim S256 ![] bcast_S_S256 (val_main_call5_v0 (F := F))
abbrev idx_main_call5_v1 (i : S256.Idx) : S_.Idx := fun a => a.elim0
theorem val_main_call5_v1_apply (i : S256.Idx) :
    val_main_call5_v1 (F := F) i = val_main_call5_v0 (F := F) (idx_main_call5_v1 i) := by
  unfold val_main_call5_v1
  generalize val_main_call5_v0 (F := F) = y
  exact broadcastInDim_apply _ bcast_S_S256 y i (idx_main_call5_v1 i) (fun a => a.elim0)

def val_main_v142 : (⟨S256, .f32⟩ : BufTy).Contents (Elt F) :=
  maximumf (val_main_call5_v1 (F := F)) (val_main_v141 (F := F) x2)
theorem val_main_v142_apply (i : S256.Idx) :
    val_main_v142 (F := F) x2 i = FloatOps.maximumf (val_main_call5_v1 (F := F) i) (val_main_v141 (F := F) x2 i) := rfl

def val_main_v143 : (⟨S256x1, .f32⟩ : BufTy).Contents (Elt F) :=
  broadcastInDim S256x1 ![0] bcast_S256_S256x1_0 (val_main_v142 (F := F) x2)
abbrev idx_main_v143 (i : S256x1.Idx) : S256.Idx := fun a => match a with
  | ⟨0, _⟩ => ⟨(i 0).val, (i 0).isLt⟩
theorem val_main_v143_apply (i : S256x1.Idx) :
    val_main_v143 (F := F) x2 i = val_main_v142 (F := F) x2 (idx_main_v143 i) := by
  unfold val_main_v143
  generalize val_main_v142 (F := F) x2 = y
  exact broadcastInDim_apply _ bcast_S256_S256x1_0 y i (idx_main_v143 i) (fun a => match a with
    | ⟨0, _⟩ => by show (i 0).val = if (256 : Nat) = 1 then 0 else (i 0).val; rw [if_neg (by decide)])

def val_main_v144 : (⟨S256x128, .f32⟩ : BufTy).Contents (Elt F) :=
  broadcastInDim S256x128 ![0, 1] bcast_S256x1_S256x128_0_1 (val_main_v143 (F := F) x2)
abbrev idx_main_v144 (i : S256x128.Idx) : S256x1.Idx := fun a => match a with
  | ⟨0, _⟩ => ⟨(i 0).val, (i 0).isLt⟩
  | ⟨1, _⟩ => ⟨0, Nat.one_pos⟩
theorem val_main_v144_apply (i : S256x128.Idx) :
    val_main_v144 (F := F) x2 i = val_main_v143 (F := F) x2 (idx_main_v144 i) := by
  unfold val_main_v144
  generalize val_main_v143 (F := F) x2 = y
  exact broadcastInDim_apply _ bcast_S256x1_S256x128_0_1 y i (idx_main_v144 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

def val_main_v145 : (⟨S256x128, .f32⟩ : BufTy).Contents (Elt F) :=
  Host.divf (val_main_v137 (F := F) x0 x1 x2 x3 x4 x5 x6 x7 x8) (val_main_v144 (F := F) x2)
theorem val_main_v145_apply (i : S256x128.Idx) :
    val_main_v145 (F := F) x0 x1 x2 x3 x4 x5 x6 x7 x8 i = FloatOps.hostDivf (val_main_v137 (F := F) x0 x1 x2 x3 x4 x5 x6 x7 x8 i) (val_main_v144 (F := F) x2 i) := rfl

def val_main_v146 : (⟨S256x256, .f32⟩ : BufTy).Contents (Elt F) :=
  Host.dotGeneral dot_S256x128_S128x256_S256x256_1_0_0_1_n_n none (val_main_v145 (F := F) x0 x1 x2 x3 x4 x5 x6 x7 x8) (x9)
theorem lhs_main_v146_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhs_main_v146_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhs_main_v146_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhs_main_v146_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl
abbrev lidx_main_v146 (i : S256x256.Idx) (k : Fin 128) : S256x128.Idx := fun a => match a with
  | ⟨0, _⟩ => ⟨(i 0).val, (i 0).isLt⟩
  | ⟨1, _⟩ => ⟨k.val, k.isLt⟩
abbrev ridx_main_v146 (i : S256x256.Idx) (k : Fin 128) : S128x256.Idx := fun a => match a with
  | ⟨0, _⟩ => ⟨k.val, k.isLt⟩
  | ⟨1, _⟩ => ⟨(i 1).val, (i 1).isLt⟩

theorem val_main_v146_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (i : S256x256.Idx) :
    val_main_v146 (F := Ideal) x0 x1 x2 x3 x4 x5 x6 x7 x8 x9 i = ∑ k : Fin 128, (val_main_v145 (F := Ideal) x0 x1 x2 x3 x4 x5 x6 x7 x8) (lidx_main_v146 i k) * x9 (ridx_main_v146 i k) := by
  unfold val_main_v146
  generalize val_main_v145 (F := Ideal) x0 x1 x2 x3 x4 x5 x6 x7 x8 = y0
  simp only [Host.dotGeneral]
  rw [Ideal.dotGeneral_apply, ← Equiv.sum_comp (ValueIdx.contrEquiv1 dot_S256x128_S128x256_S256x256_1_0_0_1_n_n 128 rfl rfl).symm]
  refine Finset.sum_congr rfl fun k _ => ?_
  have hk := ValueIdx.contrEquiv1_symm_val dot_S256x128_S128x256_S256x256_1_0_0_1_n_n 128 rfl rfl k
  have el : dot_S256x128_S128x256_S256x256_1_0_0_1_n_n.lhsIdx i ((ValueIdx.contrEquiv1 dot_S256x128_S128x256_S256x256_1_0_0_1_n_n 128 rfl rfl).symm k) = lidx_main_v146 i k := funext fun a => Fin.ext (by
    match a with
    | ⟨0, _⟩ => exact lhs_main_v146_0 _ _
    | ⟨1, _⟩ => exact (lhs_main_v146_1 _ _).trans hk)
  have er : dot_S256x128_S128x256_S256x256_1_0_0_1_n_n.rhsIdx i ((ValueIdx.contrEquiv1 dot_S256x128_S128x256_S256x256_1_0_0_1_n_n 128 rfl rfl).symm k) = ridx_main_v146 i k := funext fun a => Fin.ext (by
    match a with
    | ⟨0, _⟩ => exact (rhs_main_v146_0 _ _).trans hk
    | ⟨1, _⟩ => exact rhs_main_v146_1 _ _)
  rw [el, er]

def val_main_v147 : (⟨S1x256, .f32⟩ : BufTy).Contents (Elt F) :=
  broadcastInDim S1x256 ![1] bcast_S256_S1x256_1 (x10)
abbrev idx_main_v147 (i : S1x256.Idx) : S256.Idx := fun a => match a with
  | ⟨0, _⟩ => ⟨(i 1).val, (i 1).isLt⟩
theorem val_main_v147_apply (i : S1x256.Idx) :
    val_main_v147 (F := F) x10 i = x10 (idx_main_v147 i) := by
  unfold val_main_v147
  exact broadcastInDim_apply _ bcast_S256_S1x256_1 x10 i (idx_main_v147 i) (fun a => match a with
    | ⟨0, _⟩ => by show (i 1).val = if (256 : Nat) = 1 then 0 else (i 1).val; rw [if_neg (by decide)])

def val_main_v148 : (⟨S256x256, .f32⟩ : BufTy).Contents (Elt F) :=
  broadcastInDim S256x256 ![0, 1] bcast_S1x256_S256x256_0_1 (val_main_v147 (F := F) x10)
abbrev idx_main_v148 (i : S256x256.Idx) : S1x256.Idx := fun a => match a with
  | ⟨0, _⟩ => ⟨0, Nat.one_pos⟩
  | ⟨1, _⟩ => ⟨(i 1).val, (i 1).isLt⟩
theorem val_main_v148_apply (i : S256x256.Idx) :
    val_main_v148 (F := F) x10 i = val_main_v147 (F := F) x10 (idx_main_v148 i) := by
  unfold val_main_v148
  generalize val_main_v147 (F := F) x10 = y
  exact broadcastInDim_apply _ bcast_S1x256_S256x256_0_1 y i (idx_main_v148 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v149 : (⟨S256x256, .f32⟩ : BufTy).Contents (Elt F) :=
  addf (val_main_v146 (F := F) x0 x1 x2 x3 x4 x5 x6 x7 x8 x9) (val_main_v148 (F := F) x10)
theorem val_main_v149_apply (i : S256x256.Idx) :
    val_main_v149 (F := F) x0 x1 x2 x3 x4 x5 x6 x7 x8 x9 x10 i = FloatOps.addf (val_main_v146 (F := F) x0 x1 x2 x3 x4 x5 x6 x7 x8 x9 i) (val_main_v148 (F := F) x10 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S256x256, .f32⟩ : BufTy).Contents (Elt F) :=
  broadcastInDim S256x256 ![] bcast_S_S256x256 (val_main_call6_cst (F := F))
abbrev idx_main_call6_v0 (i : S256x256.Idx) : S_.Idx := fun a => a.elim0
theorem val_main_call6_v0_apply (i : S256x256.Idx) :
    val_main_call6_v0 (F := F) i = val_main_call6_cst (F := F) (idx_main_call6_v0 i) := by
  unfold val_main_call6_v0
  generalize val_main_call6_cst (F := F) = y
  exact broadcastInDim_apply _ bcast_S_S256x256 y i (idx_main_call6_v0 i) (fun a => a.elim0)

def val_main_v150 : (⟨S256x256, .f32⟩ : BufTy).Contents (Elt F) :=
  maximumf (val_main_v149 (F := F) x0 x1 x2 x3 x4 x5 x6 x7 x8 x9 x10) (val_main_call6_v0 (F := F))
theorem val_main_v150_apply (i : S256x256.Idx) :
    val_main_v150 (F := F) x0 x1 x2 x3 x4 x5 x6 x7 x8 x9 x10 i = FloatOps.maximumf (val_main_v149 (F := F) x0 x1 x2 x3 x4 x5 x6 x7 x8 x9 x10 i) (val_main_call6_v0 (F := F) i) := rfl

def val_main_v151 : (⟨S256x768, .f32⟩ : BufTy).Contents (Elt F) :=
  Host.dotGeneral dot_S256x256_S256x768_S256x768_1_0_0_1_n_n none (val_main_v150 (F := F) x0 x1 x2 x3 x4 x5 x6 x7 x8 x9 x10) (x11)
theorem lhs_main_v151_0 (i : S256x768.Idx) (q : dot_S256x256_S256x768_S256x768_1_0_0_1_n_n.contr.Idx) :
    (dot_S256x256_S256x768_S256x768_1_0_0_1_n_n.lhsIdx i q 0).val = (i 0).val := by
  unfold DotDims.lhsIdx
  rw [dif_neg (show ¬(0 : Fin S256x256.rank) ∈ dot_S256x256_S256x768_S256x768_1_0_0_1_n_n.lhsBatch by decide), dif_pos (show (0 : Fin S256x256.rank) ∈ dot_S256x256_S256x768_S256x768_1_0_0_1_n_n.lhsNonContracting by decide)]
  rfl
theorem lhs_main_v151_1 (i : S256x768.Idx) (q : dot_S256x256_S256x768_S256x768_1_0_0_1_n_n.contr.Idx) :
    (dot_S256x256_S256x768_S256x768_1_0_0_1_n_n.lhsIdx i q 1).val = (q ⟨0, by decide⟩).val :=
  dot_S256x256_S256x768_S256x768_1_0_0_1_n_n.lhsIdx_val_of_single rfl i q
theorem rhs_main_v151_0 (i : S256x768.Idx) (q : dot_S256x256_S256x768_S256x768_1_0_0_1_n_n.contr.Idx) :
    (dot_S256x256_S256x768_S256x768_1_0_0_1_n_n.rhsIdx i q 0).val = (q ⟨0, by decide⟩).val :=
  dot_S256x256_S256x768_S256x768_1_0_0_1_n_n.rhsIdx_val_of_single rfl i q
theorem rhs_main_v151_1 (i : S256x768.Idx) (q : dot_S256x256_S256x768_S256x768_1_0_0_1_n_n.contr.Idx) :
    (dot_S256x256_S256x768_S256x768_1_0_0_1_n_n.rhsIdx i q 1).val = (i 1).val := by
  unfold DotDims.rhsIdx
  rw [dif_neg (show ¬(1 : Fin S256x768.rank) ∈ dot_S256x256_S256x768_S256x768_1_0_0_1_n_n.rhsBatch by decide), dif_pos (show (1 : Fin S256x768.rank) ∈ dot_S256x256_S256x768_S256x768_1_0_0_1_n_n.rhsNonContracting by decide)]
  rfl
abbrev lidx_main_v151 (i : S256x768.Idx) (k : Fin 256) : S256x256.Idx := fun a => match a with
  | ⟨0, _⟩ => ⟨(i 0).val, (i 0).isLt⟩
  | ⟨1, _⟩ => ⟨k.val, k.isLt⟩
abbrev ridx_main_v151 (i : S256x768.Idx) (k : Fin 256) : S256x768.Idx := fun a => match a with
  | ⟨0, _⟩ => ⟨k.val, k.isLt⟩
  | ⟨1, _⟩ => ⟨(i 1).val, (i 1).isLt⟩

theorem val_main_v151_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S256x768, .f32⟩ : BufTy).Contents (Elt Ideal)) (i : S256x768.Idx) :
    val_main_v151 (F := Ideal) x0 x1 x2 x3 x4 x5 x6 x7 x8 x9 x10 x11 i = ∑ k : Fin 256, (val_main_v150 (F := Ideal) x0 x1 x2 x3 x4 x5 x6 x7 x8 x9 x10) (lidx_main_v151 i k) * x11 (ridx_main_v151 i k) := by
  unfold val_main_v151
  generalize val_main_v150 (F := Ideal) x0 x1 x2 x3 x4 x5 x6 x7 x8 x9 x10 = y0
  simp only [Host.dotGeneral]
  rw [Ideal.dotGeneral_apply, ← Equiv.sum_comp (ValueIdx.contrEquiv1 dot_S256x256_S256x768_S256x768_1_0_0_1_n_n 256 rfl rfl).symm]
  refine Finset.sum_congr rfl fun k _ => ?_
  have hk := ValueIdx.contrEquiv1_symm_val dot_S256x256_S256x768_S256x768_1_0_0_1_n_n 256 rfl rfl k
  have el : dot_S256x256_S256x768_S256x768_1_0_0_1_n_n.lhsIdx i ((ValueIdx.contrEquiv1 dot_S256x256_S256x768_S256x768_1_0_0_1_n_n 256 rfl rfl).symm k) = lidx_main_v151 i k := funext fun a => Fin.ext (by
    match a with
    | ⟨0, _⟩ => exact lhs_main_v151_0 _ _
    | ⟨1, _⟩ => exact (lhs_main_v151_1 _ _).trans hk)
  have er : dot_S256x256_S256x768_S256x768_1_0_0_1_n_n.rhsIdx i ((ValueIdx.contrEquiv1 dot_S256x256_S256x768_S256x768_1_0_0_1_n_n 256 rfl rfl).symm k) = ridx_main_v151 i k := funext fun a => Fin.ext (by
    match a with
    | ⟨0, _⟩ => exact (rhs_main_v151_0 _ _).trans hk
    | ⟨1, _⟩ => exact rhs_main_v151_1 _ _)
  rw [el, er]

def val_main_v152 : (⟨S1x768, .f32⟩ : BufTy).Contents (Elt F) :=
  broadcastInDim S1x768 ![1] bcast_S768_S1x768_1 (x12)
abbrev idx_main_v152 (i : S1x768.Idx) : S768.Idx := fun a => match a with
  | ⟨0, _⟩ => ⟨(i 1).val, (i 1).isLt⟩
theorem val_main_v152_apply (i : S1x768.Idx) :
    val_main_v152 (F := F) x12 i = x12 (idx_main_v152 i) := by
  unfold val_main_v152
  exact broadcastInDim_apply _ bcast_S768_S1x768_1 x12 i (idx_main_v152 i) (fun a => match a with
    | ⟨0, _⟩ => by show (i 1).val = if (768 : Nat) = 1 then 0 else (i 1).val; rw [if_neg (by decide)])

def val_main_v153 : (⟨S256x768, .f32⟩ : BufTy).Contents (Elt F) :=
  broadcastInDim S256x768 ![0, 1] bcast_S1x768_S256x768_0_1 (val_main_v152 (F := F) x12)
abbrev idx_main_v153 (i : S256x768.Idx) : S1x768.Idx := fun a => match a with
  | ⟨0, _⟩ => ⟨0, Nat.one_pos⟩
  | ⟨1, _⟩ => ⟨(i 1).val, (i 1).isLt⟩
theorem val_main_v153_apply (i : S256x768.Idx) :
    val_main_v153 (F := F) x12 i = val_main_v152 (F := F) x12 (idx_main_v153 i) := by
  unfold val_main_v153
  generalize val_main_v152 (F := F) x12 = y
  exact broadcastInDim_apply _ bcast_S1x768_S256x768_0_1 y i (idx_main_v153 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])

def val_main_v154 : (⟨S256x768, .f32⟩ : BufTy).Contents (Elt F) :=
  addf (val_main_v151 (F := F) x0 x1 x2 x3 x4 x5 x6 x7 x8 x9 x10 x11) (val_main_v153 (F := F) x12)
theorem val_main_v154_apply (i : S256x768.Idx) :
    val_main_v154 (F := F) x0 x1 x2 x3 x4 x5 x6 x7 x8 x9 x10 x11 x12 i = FloatOps.addf (val_main_v151 (F := F) x0 x1 x2 x3 x4 x5 x6 x7 x8 x9 x10 x11 i) (val_main_v153 (F := F) x12 i) := rfl

end Cert.ReferenceIdeal.Read

end
-- ==== Proof.Ref.RunP.lean ====
import proofs.«430777_j3556232921556_3_alg».proof.Proof.Ref.ReadP
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf (F := F) .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf (F := F) .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x128 ![0, 1] bcast_S850000x1_S850000x128_0_1 : (⟨S850000x1, .f32⟩ : BufTy).Contents (Elt F) → (⟨S850000x128, .f32⟩ : BufTy).Contents (Elt F)),
    binary main_v81 main_v83 main_v84 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v90) (TRef.of (T := ⟨S50000x128, .f32⟩) main_call3_v0) (TRef.of (T := ⟨S50000x128, .f32⟩) main_v91) maximumf,
    binary main_v91 main_arg7 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v93 (iotaInDim S50000 32 0),
    binary main_v1 main_v93 main_v94 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v93 main_v95 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_20 (constant S_ .f32 0x3F800000#32),
    unary main_cst_20 main_v96 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v97 (broadcastInDim S50000 ![] bcast_S_S50000 : (⟨S_, .f32⟩ : BufTy).Contents (Elt F) → (⟨S50000, .f32⟩ : BufTy).Contents (Elt F)),
    unary main_v95 main_v98 (broadcastInDim S850000x1 ![0] bcast_S850000_S850000x1_0 : (⟨S850000, .i32⟩ : BufTy).Contents (Elt F) → (⟨S850000x1, .i32⟩ : BufTy).Contents (Elt F)),
    ternary main_v97 main_v98 main_v96 main_v99 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v100 (broadcastInDim S50000 ![] bcast_S_S50000 : (⟨S_, .f32⟩ : BufTy).Contents (Elt F) → (⟨S50000, .f32⟩ : BufTy).Contents (Elt F)),
    binary main_v99 main_v100 main_v101 (cmpf (F := F) .ogt : (⟨S50000, .f32⟩ : BufTy).Contents (Elt F) → (⟨S50000, .f32⟩ : BufTy).Contents (Elt F) → (⟨S50000, .i1⟩ : BufTy).Contents (Elt F)),
    unary main_v99 main_v102 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v101) (TRef.of (T := ⟨S50000, .f32⟩) main_v102) (TRef.of (T := ⟨S50000, .f32⟩) main_call4_v1) (TRef.of (T := ⟨S50000, .f32⟩) main_v103) select,
    nullary main_c_24 (constantI S_ 32 0#32),
    unary main_c_24 main_v104 (broadcastInDim S850000 ![] bcast_S_S850000 : (⟨S_, .i32⟩ : BufTy).Contents (Elt F) → (⟨S850000, .i32⟩ : BufTy).Contents (Elt F)),
    binary main_v94 main_v104 main_v105 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v106 (broadcastInDim S850000 ![] bcast_S_S850000 : (⟨S_, .i32⟩ : BufTy).Contents (Elt F) → (⟨S850000, .i32⟩ : BufTy).Contents (Elt F)),
    binary main_v94 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v94 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v111 (broadcastInDim S850000 ![] bcast_S_S850000 : (⟨S_, .i32⟩ : BufTy).Contents (Elt F) → (⟨S850000, .i32⟩ : BufTy).Contents (Elt F)),
    binary main_v95 main_v111 main_v112 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v113 (broadcastInDim S850000 ![] bcast_S_S850000 : (⟨S_, .i32⟩ : BufTy).Contents (Elt F) → (⟨S850000, .i32⟩ : BufTy).Contents (Elt F)),
    binary main_v95 main_v113 main_v114 (addi : (⟨S850000, .i32⟩ : BufTy).Contents (Elt F) → (⟨S850000, .i32⟩ : BufTy).Contents (Elt F) → (⟨S850000, .i32⟩ : BufTy).Contents (Elt F)),
    ternary main_v112 main_v114 main_v95 main_v115 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v115 main_v116 (broadcastInDim S850000x1 ![0] bcast_S850000_S850000x1_0 : (⟨S850000, .i32⟩ : BufTy).Contents (Elt F) → (⟨S850000x1, .i32⟩ : BufTy).Contents (Elt F)),
    binary main_v103 main_v116 main_v117 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v110 main_v117 main_v118 (mulf : (⟨S850000, .f32⟩ : BufTy).Contents (Elt F) → (⟨S850000, .f32⟩ : BufTy).Contents (Elt F) → (⟨S850000, .f32⟩ : BufTy).Contents (Elt F)),
    nullary main_c_28 (constantI S_ 32 0#32),
    unary main_c_28 main_v119 (broadcastInDim S850000 ![] bcast_S_S850000 : (⟨S_, .i32⟩ : BufTy).Contents (Elt F) → (⟨S850000, .i32⟩ : BufTy).Contents (Elt F)),
    binary main_v94 main_v119 main_v120 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v121 (broadcastInDim S850000 ![] bcast_S_S850000 : (⟨S_, .i32⟩ : BufTy).Contents (Elt F) → (⟨S850000, .i32⟩ : BufTy).Contents (Elt F)),
    binary main_v94 main_v121 main_v122 (addi : (⟨S850000, .i32⟩ : BufTy).Contents (Elt F) → (⟨S850000, .i32⟩ : BufTy).Contents (Elt F) → (⟨S850000, .i32⟩ : BufTy).Contents (Elt F)),
    ternary main_v120 main_v122 main_v94 main_v123 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v123 main_v124 (broadcastInDim S850000x1 ![0] bcast_S850000_S850000x1_0 : (⟨S850000, .i32⟩ : BufTy).Contents (Elt F) → (⟨S850000x1, .i32⟩ : BufTy).Contents (Elt F)),
    binary main_v92 main_v124 main_v125 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v118 main_v126 (broadcastInDim S850000x1 ![0] bcast_S850000_S850000x1_0 : (⟨S850000, .f32⟩ : BufTy).Contents (Elt F) → (⟨S850000x1, .f32⟩ : BufTy).Contents (Elt F)),
    unary main_v126 main_v127 (broadcastInDim S850000x128 ![0, 1] bcast_S850000x1_S850000x128_0_1 : (⟨S850000x1, .f32⟩ : BufTy).Contents (Elt F) → (⟨S850000x128, .f32⟩ : BufTy).Contents (Elt F)),
    binary main_v125 main_v127 main_v128 (mulf : (⟨S850000x128, .f32⟩ : BufTy).Contents (Elt F) → (⟨S850000x128, .f32⟩ : BufTy).Contents (Elt F) → (⟨S850000x128, .f32⟩ : BufTy).Contents (Elt F)),
    nullary main_cst_30 (constant S_ .f32 0x00000000#32),
    unary main_cst_30 main_v129 (broadcastInDim S50000x128 ![] bcast_S_S50000x128 : (⟨S_, .f32⟩ : BufTy).Contents (Elt F) → (⟨S50000x128, .f32⟩ : BufTy).Contents (Elt F)),
    unary main_v95 main_v130 (broadcastInDim S850000x1 ![0] bcast_S850000_S850000x1_0 : (⟨S850000, .i32⟩ : BufTy).Contents (Elt F) → (⟨S850000x1, .i32⟩ : BufTy).Contents (Elt F)),
    ternary main_v129 main_v130 main_v128 main_v131 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (addf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    unary main_cst_31 main_v135 (broadcastInDim S256x128 ![] bcast_S_S256x128 : (⟨S_, .f32⟩ : BufTy).Contents (Elt F) → (⟨S256x128, .f32⟩ : BufTy).Contents (Elt F)),
    unary main_arg2 main_v136 (broadcastInDim S50000x1 ![0] bcast_S50000_S50000x1_0 : (⟨S50000, .i32⟩ : BufTy).Contents (Elt F) → (⟨S50000x1, .i32⟩ : BufTy).Contents (Elt F)),
    ternary main_v135 main_v136 main_v134 main_v137 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    nullary main_cst_32 (constant S_ .f32 0x3F800000#32),
    unary main_cst_32 main_v138 (broadcastInDim S50000 ![] bcast_S_S50000 : (⟨S_, .f32⟩ : BufTy).Contents (Elt F) → (⟨S50000, .f32⟩ : BufTy).Contents (Elt F)),
    nullary main_cst_33 (constant S_ .f32 0x00000000#32),
    unary main_cst_33 main_v139 (broadcastInDim S256 ![] bcast_S_S256 : (⟨S_, .f32⟩ : BufTy).Contents (Elt F) → (⟨S256, .f32⟩ : BufTy).Contents (Elt F)),
    unary main_arg2 main_v140 (broadcastInDim S50000x1 ![0] bcast_S50000_S50000x1_0 : (⟨S50000, .i32⟩ : BufTy).Contents (Elt F) → (⟨S50000x1, .i32⟩ : BufTy).Contents (Elt F)),
    ternary main_v139 main_v140 main_v138 main_v141 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_34 (constant S_ .f32 0x3F800000#32),
    TRef.unary (TRef.of (T := ⟨S_, .f32⟩) main_cst_34) (TRef.of (T := ⟨S_, .f32⟩) main_call5_v0) id,
    TRef.unary (TRef.of (T := ⟨S_, .f32⟩) main_call5_v0) (TRef.of (T := ⟨S256, .f32⟩) main_call5_v1) (broadcastInDim S256 ![] bcast_S_S256),
    TRef.binary (TRef.of (T := ⟨S256, .f32⟩) main_call5_v1) (TRef.of (T := ⟨S256, .f32⟩) main_v141) (TRef.of (T := ⟨S256, .f32⟩) main_v142) maximumf,
    unary main_v142 main_v143 (broadcastInDim S256x1 ![0] bcast_S256_S256x1_0 : (⟨S256, .f32⟩ : BufTy).Contents (Elt F) → (⟨S256x1, .f32⟩ : BufTy).Contents (Elt F)),
    unary main_v143 main_v144 (broadcastInDim S256x128 ![0, 1] bcast_S256x1_S256x128_0_1 : (⟨S256x1, .f32⟩ : BufTy).Contents (Elt F) → (⟨S256x128, .f32⟩ : BufTy).Contents (Elt F)),
    binary main_v137 main_v144 main_v145 (Host.divf : (⟨S256x128, .f32⟩ : BufTy).Contents (Elt F) → (⟨S256x128, .f32⟩ : BufTy).Contents (Elt F) → (⟨S256x128, .f32⟩ : BufTy).Contents (Elt F)),
    binary main_v145 main_arg9 main_v146 ((fun l r => Host.dotGeneral dot_S256x128_S128x256_S256x256_1_0_0_1_n_n none l r) : (⟨S256x128, .f32⟩ : BufTy).Contents (Elt F) → (⟨S128x256, .f32⟩ : BufTy).Contents (Elt F) → (⟨S256x256, .f32⟩ : BufTy).Contents (Elt F)),
    unary main_arg10 main_v147 (broadcastInDim S1x256 ![1] bcast_S256_S1x256_1 : (⟨S256, .f32⟩ : BufTy).Contents (Elt F) → (⟨S1x256, .f32⟩ : BufTy).Contents (Elt F)),
    unary main_v147 main_v148 (broadcastInDim S256x256 ![0, 1] bcast_S1x256_S256x256_0_1 : (⟨S1x256, .f32⟩ : BufTy).Contents (Elt F) → (⟨S256x256, .f32⟩ : BufTy).Contents (Elt F)),
    binary main_v146 main_v148 main_v149 (addf : (⟨S256x256, .f32⟩ : BufTy).Contents (Elt F) → (⟨S256x256, .f32⟩ : BufTy).Contents (Elt F) → (⟨S256x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S256x256, .f32⟩) main_call6_v0) (broadcastInDim S256x256 ![] bcast_S_S256x256),
    TRef.binary (TRef.of (T := ⟨S256x256, .f32⟩) main_v149) (TRef.of (T := ⟨S256x256, .f32⟩) main_call6_v0) (TRef.of (T := ⟨S256x256, .f32⟩) main_v150) maximumf,
    binary main_v150 main_arg11 main_v151 ((fun l r => Host.dotGeneral dot_S256x256_S256x768_S256x768_1_0_0_1_n_n none l r) : (⟨S256x256, .f32⟩ : BufTy).Contents (Elt F) → (⟨S256x768, .f32⟩ : BufTy).Contents (Elt F) → (⟨S256x768, .f32⟩ : BufTy).Contents (Elt F)),
    unary main_arg12 main_v152 (broadcastInDim S1x768 ![1] bcast_S768_S1x768_1 : (⟨S768, .f32⟩ : BufTy).Contents (Elt F) → (⟨S1x768, .f32⟩ : BufTy).Contents (Elt F)),
    unary main_v152 main_v153 (broadcastInDim S256x768 ![0, 1] bcast_S1x768_S256x768_0_1 : (⟨S1x768, .f32⟩ : BufTy).Contents (Elt F) → (⟨S256x768, .f32⟩ : BufTy).Contents (Elt F)),
    binary main_v151 main_v153 main_v154 (addf : (⟨S256x768, .f32⟩ : BufTy).Contents (Elt F) → (⟨S256x768, .f32⟩ : BufTy).Contents (Elt F) → (⟨S256x768, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The result as the read chain's term of the argument buffers. -/
def res_main_v154 (m : (ℓ : Loc nD τ sig) → Buf (Elt F) ℓ) (c : Dev nD) : Buf (Elt F) ((c.tc : Thread nD τ).loc main_v154) :=
  Cert.ReferenceIdeal.Read.val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

abbrev res_out0 (m : (ℓ : Loc nD τ sig) → Buf (Elt F) ℓ) (c : Dev nD) : Buf (Elt F) ((c.tc : Thread nD τ).loc main_v154) := res_main_v154 m c

set_option maxRecDepth 8192 in
set_option maxHeartbeats 82400000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154) = res_main_v154 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v154).trans (by after_results_simp <;> rfl <;> (unfold res_main_v154; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.Value

end
-- ==== Proof.RefImports.lean ====
import proofs.«430777_j3556232921556_3_alg».proof.Proof.Ref.RunP
import proofs.«430777_j3556232921556_3_alg».proof.Proof.Ref.ReadP
-- ==== Proof.Ref.Layer1.lean ====
import proofs.«430777_j3556232921556_3_alg».proof.Proof.RefImports
import proofs.«430777_j3556232921556_3_alg».proof.Proof.Spec
import proofs.«430777_j3556232921556_3_alg».proof.Proof.LibScatterGather
import proofs.«430777_j3556232921556_3_alg».proof.Proof.LibGatherRows
import proofs.«430777_j3556232921556_3_alg».proof.Proof.LibRowProducts
import Idealize.ShloMosaic.Lib.IdealHost
import Idealize.ShloMosaic.Lib.Pipeline.Value

noncomputable section

namespace Cert.ReferenceIdeal.RefValue

open Idealize.ShloMosaic Idealize.ShloMosaic.ValueIdx Cert.Spec Cert.ReferenceIdeal Cert.ReferenceIdeal.Gen Cert.ReferenceIdeal.Read

-- The edge words y followed by the node numbers: below 800000 a position reads y, from there on its own offset.
theorem cat_apply (y : S800000.Idx → BitVec 32) (e : Fin 850000) :
    concatenate S850000 0 [⟨S800000, y⟩, ⟨S50000, val_main_v5 (F := Ideal)⟩]
      concatenates_S800000_S50000_S850000_d0 (ix1 e)
      = if h : e.val < 800000 then y (ix1 ⟨e.val, h⟩) else BitVec.ofNat 32 (e.val - 800000) := by
  split
  · rename_i h
    exact concatenate_pair_apply_left (0 : Fin 1) y _ _ (ix1 e) rfl (ix1 ⟨e.val, h⟩) fun b =>
      match b with
      | ⟨0, _⟩ => rfl
  · exact (concatenate_pair_apply_right (0 : Fin 1) y (val_main_v5 (F := Ideal)) _ (ix1 e) rfl rfl
      (ix1 (⟨e.val - 800000, by omega⟩ : Fin 50000))
      (fun b hb => absurd (Subsingleton.elim _ _) hb) (by show e.val - 800000 + 800000 = e.val; omega)).trans rfl

theorem v6_apply (x1 : Edges) (e : Fin 850000) : val_main_v6 (F := Ideal) x1 (ix1 e) = srcF x1 e := by
  unfold val_main_v6 srcF src
  rw [cat_apply]
  split
  · rw [val_main_v1_apply, val_main_v0_apply]
    exact congrArg x1 (funext fun a => Fin.ext (by
      match a with
      | ⟨0, _⟩ => rfl
      | ⟨1, _⟩ => show e.val % 800000 = e.val; omega))
  · rfl

theorem v7_apply (x1 : Edges) (e : Fin 850000) : val_main_v7 (F := Ideal) x1 (ix1 e) = dstF x1 e := by
  unfold val_main_v7 dstF dst
  rw [cat_apply]
  split
  · rw [val_main_v3_apply, val_main_v2_apply]
    exact congrArg x1 (funext fun a => Fin.ext (by
      match a with
      | ⟨0, _⟩ => rfl
      | ⟨1, _⟩ => show e.val % 800000 = e.val; omega))
  · rfl

theorem col_apply {α : Type} (y : S850000.Idx → α) (e : Fin 850000) :
    broadcastInDim S850000x1 ![0] bcast_S850000_S850000x1_0 y (ix2 e (0 : Fin 1)) = y (ix1 e) :=
  broadcastInDim_apply _ bcast_S850000_S850000x1_0 y (ix2 e (0 : Fin 1)) (ix1 e) (fun a => match a with
    | ⟨0, _⟩ => by show e.val = if (850000 : Nat) = 1 then 0 else e.val; rw [if_neg (by decide)])

theorem v11_apply (x1 : Edges) (i : Fin 50000) : val_main_v11 (F := Ideal) x1 (ix1 i) = degR x1 i := by
  unfold val_main_v11 degR
  rw [Cert.Lib.scatterAdd_vec scatter_S50000_S850000x1_S850000_n_0_0_1 rfl rfl rfl rfl, val_main_v9_apply,
    val_main_cst_0_apply, Ideal.ofBits_def, Ideal.ofBits_zero_f32, zero_add]
  refine Finset.sum_congr rfl fun e _ => ?_
  unfold val_main_v10
  rw [col_apply, v7_apply, val_main_v8_apply, val_main_cst_apply, Ideal.ofBits_def, Ideal.ofBits_one_f32]

theorem v15_apply (x1 : Edges) (i : Fin 50000) : val_main_v15 (F := Ideal) x1 (ix1 i) = dinvR x1 i := by
  rw [val_main_v15_apply, val_main_v13_apply, val_main_v14_apply, val_main_call0_v1_apply, val_main_call0_v0_apply,
    val_main_cst_2_apply, val_main_v12_apply, val_main_cst_1_apply, v11_apply]
  unfold dinvR
  generalize degR x1 i = d
  show Scalar.select (Ideal.cmp .ogt d (Ideal.ofBits .f32 0x00000000#32)) (Ideal.rsqrt d)
    (Ideal.ofBits .f32 0x00000000#32) = _
  rw [Ideal.ofBits_zero_f32]
  unfold Ideal.cmp Scalar.select
  by_cases h : 0 < d
  · rw [if_pos h, if_pos (by simp [h])]
  · rw [if_neg h, if_neg (by simp [h])]

theorem v20_apply (x1 : Edges) (e : Fin 850000) : val_main_v20 (F := Ideal) x1 (ix1 e) = wrap (srcF x1 e) := by
  rw [val_main_v20_apply, val_main_v17_apply, val_main_v19_apply, val_main_v16_apply, val_main_c_apply,
    val_main_v18_apply, val_main_c_3_apply, v6_apply]
  exact select_wrap _

theorem v27_apply (x1 : Edges) (e : Fin 850000) : val_main_v27 (F := Ideal) x1 (ix1 e) = wrap (dstF x1 e) := by
  rw [val_main_v27_apply, val_main_v24_apply, val_main_v26_apply, val_main_v23_apply, val_main_c_4_apply,
    val_main_v25_apply, val_main_c_5_apply, v7_apply]
  exact select_wrap _

-- A column of wrapped words names, row by row, the node the specification's `pos` names.
theorem col_pos (y : S850000.Idx → BitVec 32) (s : BitVec 32) (e : Fin 850000) (hy : y (ix1 e) = wrap s) :
    (⟨min (broadcastInDim S850000x1 ![0] bcast_S850000_S850000x1_0 y (ix2 e (0 : Fin 1))).toInt.toNat (50000 - 1),
      by omega⟩ : Fin 50000) = pos s :=
  Fin.ext (by dsimp only; rw [col_apply, hy]; rfl)

-- The inverse square-root degree taken at a column of wrapped words.
theorem take_dinv (x1 : Edges) (y : S850000.Idx → BitVec 32) (s : BitVec 32) (e : Fin 850000)
    (hy : y (ix1 e) = wrap s) :
    Host.gather gather_S50000_S850000x1_S850000_n_0_n_n_0_1_1 (val_main_v15 (F := Ideal) x1)
      (broadcastInDim S850000x1 ![0] bcast_S850000_S850000x1_0 y) (ix1 e) = dinvR x1 (pos s) :=
  (Cert.Lib.gather_vec gather_S50000_S850000x1_S850000_n_0_n_n_0_1_1 rfl rfl rfl rfl rfl _ _ e (by decide)).trans
    ((congrArg (fun p => val_main_v15 (F := Ideal) x1 (ix1 p)) (col_pos y s e hy)).trans (v15_apply x1 _))

theorem v22_apply (x1 : Edges) (e : Fin 850000) :
    val_main_v22 (F := Ideal) x1 (ix1 e) = dinvR x1 (pos (srcF x1 e)) :=
  take_dinv x1 (val_main_v20 (F := Ideal) x1) _ e (v20_apply x1 e)

theorem v29_apply (x1 : Edges) (e : Fin 850000) :
    val_main_v29 (F := Ideal) x1 (ix1 e) = dinvR x1 (pos (dstF x1 e)) :=
  take_dinv x1 (val_main_v27 (F := Ideal) x1) _ e (v27_apply x1 e)

theorem v30_apply (x1 : Edges) (e : Fin 850000) :
    val_main_v30 (F := Ideal) x1 (ix1 e) = dinvR x1 (pos (srcF x1 e)) * dinvR x1 (pos (dstF x1 e)) := by
  rw [val_main_v30_apply, v22_apply, v29_apply]
  rfl

theorem v4_eq (h : Arr2 50000 128) (W : Arr2 128 128) : val_main_v4 (F := Ideal) h W = lin h W :=
  funext fun j => Cert.Lib.RowProducts.Plain.dotGeneral_apply
    (d := dot_S50000x128_S128x128_S50000x128_1_0_0_1_n_n) ⟨rfl, rfl, rfl, rfl, rfl, rfl⟩ none h W j

theorem v37_apply (h : Arr2 50000 128) (x1 : Edges) (W : Arr2 128 128) (e : Fin 850000) (k : Fin 128) :
    val_main_v37 (F := Ideal) h x1 W (ix2 e k) = lin h W (ix2 (pos (srcF x1 e)) k) := by
  unfold val_main_v37
  rw [Cert.Lib.gather_rows gather_S50000x128_S850000x1_S850000x128_1_0_n_n_0_1_1128 rfl rfl rfl rfl rfl _ _ e k
    (by decide), v4_eq]
  exact congrArg (fun p => lin h W (ix2 p k)) (col_pos _ _ e (v20_apply x1 e))

theorem v39_apply (x1 : Edges) (e : Fin 850000) (k : Fin 128) :
    val_main_v39 (F := Ideal) x1 (ix2 e k) = dinvR x1 (pos (srcF x1 e)) * dinvR x1 (pos (dstF x1 e)) := by
  rw [val_main_v39_apply, show idx_main_v39 (ix2 e k) = ix2 e (0 : Fin 1) from eq_ix2 _]
  unfold val_main_v38
  rw [col_apply, v30_apply]

theorem v45_apply (b : Arr1 128) (i : Fin 50000) (k : Fin 128) : val_main_v45 (F := Ideal) b (ix2 i k) = b (ix1 k) := by
  rw [val_main_v45_apply, val_main_v44_apply]
  exact congrArg b (eq_ix1 _)

theorem layer_eq (h : Arr2 50000 128) (x1 : Edges) (W : Arr2 128 128) (b : Arr1 128) :
    val_main_v46 (F := Ideal) h x1 W b = layerR x1 h W b := by
  funext j
  obtain ⟨i, k, rfl⟩ : ∃ (i : Fin 50000) (k : Fin 128), j = ix2 i k := ⟨j 0, j 1, eq_ix2 j⟩
  rw [val_main_v46_apply, v45_apply]
  unfold val_main_v43
  rw [Cert.Lib.scatterAdd_rows scatter_S50000x128_S850000x1_S850000x128_1_0_0_1 rfl rfl rfl rfl,
    val_main_v41_apply, val_main_cst_8_apply, Ideal.ofBits_def, Ideal.ofBits_zero_f32, zero_add]
  refine congrArg (· + b (ix1 k)) (Finset.sum_congr rfl fun e _ => ?_)
  unfold val_main_v42
  rw [col_apply, v7_apply, val_main_v40_apply, v37_apply, v39_apply]
  rfl

theorem layer_relu_eq (h : Arr2 50000 128) (x1 : Edges) (W : Arr2 128 128) (b : Arr1 128) :
    val_main_v47 (F := Ideal) h x1 W b = relu (layerR x1 h W b) := by
  funext j
  rw [val_main_v47_apply, layer_eq, val_main_call1_v0_apply, val_main_call1_cst_apply, Ideal.ofBits_def,
    Ideal.ofBits_zero_f32]
  rfl

-- The same layer three times over, a rectifier after the first two.
theorem conv_eq (x0 : Arr2 50000 128) (x1 : Edges) (x3 x5 x7 : Arr2 128 128) (x4 x6 x8 : Arr1 128) :
    val_main_v134 (F := Ideal) x0 x1 x3 x4 x5 x6 x7 x8 = convR x1 x0 x3 x4 x5 x6 x7 x8 := by
  rw [show val_main_v134 (F := Ideal) x0 x1 x3 x4 x5 x6 x7 x8
      = val_main_v46 (F := Ideal) (val_main_v91 (F := Ideal) x0 x1 x3 x4 x5 x6) x1 x7 x8 from rfl, layer_eq,
    show val_main_v91 (F := Ideal) x0 x1 x3 x4 x5 x6
      = val_main_v47 (F := Ideal) (val_main_v47 (F := Ideal) x0 x1 x3 x4) x1 x5 x6 from rfl, layer_relu_eq, layer_relu_eq]
  rfl

end Cert.ReferenceIdeal.RefValue

end
-- ==== Proof.Ref.Head.lean ====
import proofs.«430777_j3556232921556_3_alg».proof.Proof.RefImports
import proofs.«430777_j3556232921556_3_alg».proof.Proof.Spec
import proofs.«430777_j3556232921556_3_alg».proof.Proof.LibScatterGather
import Idealize.ShloMosaic.Lib.IdealHost

noncomputable section

namespace Cert.ReferenceIdeal.RefValue

open Cert.ReferenceIdeal Cert.ReferenceIdeal.Gen Cert.ReferenceIdeal.Read Idealize.ShloMosaic
  Idealize.ShloMosaic.ValueIdx Cert.Spec
open scoped BigOperators

variable (x0 : Arr2 50000 128) (x1 : Edges) (x2 : Groups) (x3 : Arr2 128 128) (x4 : Arr1 128) (x5 : Arr2 128 128)
  (x6 : Arr1 128) (x7 : Arr2 128 128) (x8 : Arr1 128) (x9 : Arr2 128 256) (x10 : Arr1 256) (x11 : Arr2 256 768)
  (x12 : Arr1 768)

theorem size_eq (g : Fin 256) : val_main_v141 (F := Ideal) x2 (ix1 g) = sizeR x2 g := by
  unfold val_main_v141 sizeR
  rw [Cert.Lib.scatterAdd_vec scatter_S256_S50000x1_S50000_n_0_0_1 rfl rfl rfl rfl, val_main_v139_apply,
    val_main_cst_33_apply, Ideal.ofBits_def, Ideal.ofBits_zero_f32, zero_add]
  refine Finset.sum_congr rfl fun e _ => ?_
  rw [val_main_v140_apply, val_main_v138_apply, val_main_cst_32_apply, Ideal.ofBits_def, Ideal.ofBits_one_f32,
    show idx_main_v140 (ix2 e (0 : Fin 1)) = ix1 e from eq_ix1 _]

theorem pool_eq (g : Fin 256) (k : Fin 128) :
    val_main_v137 (F := Ideal) x0 x1 x2 x3 x4 x5 x6 x7 x8 (ix2 g k)
      = poolR x2 (val_main_v134 (F := Ideal) x0 x1 x3 x4 x5 x6 x7 x8) (ix2 g k) := by
  unfold val_main_v137
  rw [Cert.Lib.scatterAdd_rows scatter_S256x128_S50000x1_S50000x128_1_0_0_1 rfl rfl rfl rfl, val_main_v135_apply,
    val_main_cst_31_apply, Ideal.ofBits_def, Ideal.ofBits_zero_f32, zero_add]
  refine Finset.sum_congr rfl fun e _ => ?_
  rw [val_main_v136_apply, show idx_main_v136 (ix2 e (0 : Fin 1)) = ix1 e from eq_ix1 _]

theorem mean_eq (g : Fin 256) (k : Fin 128) :
    val_main_v145 (F := Ideal) x0 x1 x2 x3 x4 x5 x6 x7 x8 (ix2 g k)
      = Ideal.div (poolR x2 (val_main_v134 (F := Ideal) x0 x1 x3 x4 x5 x6 x7 x8) (ix2 g k)) (max 1 (sizeR x2 g)) := by
  rw [val_main_v145_apply, pool_eq, val_main_v144_apply, val_main_v143_apply,
    show idx_main_v143 (idx_main_v144 (ix2 g k)) = ix1 g from eq_ix1 _, val_main_v142_apply, size_eq,
    val_main_call5_v1_apply, val_main_call5_v0_apply, val_main_cst_34_apply, Ideal.ofBits_def,
    Ideal.ofBits_one_f32, Ideal.hostDivf_def, Ideal.maximumf_def]

theorem hidden_eq (g q : Fin 256) :
    val_main_v150 (F := Ideal) x0 x1 x2 x3 x4 x5 x6 x7 x8 x9 x10 (ix2 g q)
      = max ((∑ k : Fin 128,
          Ideal.div (poolR x2 (val_main_v134 (F := Ideal) x0 x1 x3 x4 x5 x6 x7 x8) (ix2 g k))
            (max 1 (sizeR x2 g)) * x9 (ix2 k q)) + x10 (ix1 q)) 0 := by
  rw [val_main_v150_apply, val_main_v149_apply, val_main_v146_apply, val_main_v148_apply, val_main_v147_apply,
    show idx_main_v147 (idx_main_v148 (ix2 g q)) = ix1 q from eq_ix1 _,
    val_main_call6_v0_apply, val_main_call6_cst_apply, Ideal.ofBits_def, Ideal.ofBits_zero_f32,
    Ideal.maximumf_def, Ideal.addf_def]
  refine congrArg (fun s => max (s + x10 (ix1 q)) 0) (Finset.sum_congr rfl fun k _ => ?_)
  rw [show lidx_main_v146 (ix2 g q) k = ix2 g k from eq_ix2 _,
    show ridx_main_v146 (ix2 g q) k = ix2 k q from eq_ix2 _, mean_eq]

theorem head_eq :
    val_main_v154 (F := Ideal) x0 x1 x2 x3 x4 x5 x6 x7 x8 x9 x10 x11 x12
      = headR (poolR x2 (val_main_v134 (F := Ideal) x0 x1 x3 x4 x5 x6 x7 x8)) (sizeR x2) x9 x10 x11 x12 := by
  funext i
  obtain ⟨g, o, rfl⟩ : ∃ (g : Fin 256) (o : Fin 768), i = ix2 g o := ⟨i 0, i 1, eq_ix2 i⟩
  rw [val_main_v154_apply, val_main_v151_apply, val_main_v153_apply, val_main_v152_apply,
    show idx_main_v152 (idx_main_v153 (ix2 g o)) = ix1 o from eq_ix1 _, Ideal.addf_def]
  refine congrArg (fun s => s + x12 (ix1 o)) (Finset.sum_congr rfl fun q _ => ?_)
  rw [show lidx_main_v151 (ix2 g o) q = ix2 g q from eq_ix2 _,
    show ridx_main_v151 (ix2 g o) q = ix2 q o from eq_ix2 _, hidden_eq]

end Cert.ReferenceIdeal.RefValue

end
-- ==== Proof.Ref.Value.lean ====
import proofs.«430777_j3556232921556_3_alg».proof.Proof.Ref.Layer1
import proofs.«430777_j3556232921556_3_alg».proof.Proof.Ref.Head

noncomputable section

namespace Cert.ReferenceIdeal.RefValue

open Idealize.ShloMosaic Idealize.ShloMosaic.TcCoe Idealize.SL.Sem Cert.ReferenceIdeal Cert.ReferenceIdeal.Gen

def refOut (m : (ℓ : Loc nD τ sig) → Buf (Elt Ideal) ℓ) (c : Dev nD) : Cert.Spec.Arr2 256 768 :=
  Cert.Spec.outR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

theorem ref_value (m : (ℓ : Loc nD τ sig) → Buf (Elt Ideal) ℓ) (c : Dev nD) :
    Cert.ReferenceIdeal.Value.res_out0 (F := Ideal) m c = refOut m c := by
  show Cert.ReferenceIdeal.Value.res_main_v154 (F := Ideal) m c = _
  unfold Cert.ReferenceIdeal.Value.res_main_v154
  rw [head_eq, conv_eq]
  rfl

end Cert.ReferenceIdeal.RefValue

end
-- ==== Proof.SpecBridge.lean ====
import proofs.«430777_j3556232921556_3_alg».proof.Proof.Spec
import Idealize.ShloMosaic.Lib.StableHlo.Predicate
import Mathlib.Algebra.BigOperators.Fin
import Mathlib.Data.EReal.Operations
import Mathlib.Analysis.SpecialFunctions.Pow.Real

noncomputable section

namespace Cert.Spec

open Idealize.ShloMosaic Idealize.ShloMosaic.ValueIdx Idealize.ShloMosaic.StableHlo.Predicate
open scoped BigOperators

theorem toInt_eq_iff_eq_ofNat (w : BitVec 32) (g : ℕ) (hg : g < 2 ^ 31) :
    w.toInt = (g : ℤ) ↔ w = BitVec.ofNat 32 g :=
  ⟨fun h => BitVec.eq_of_toInt_eq (h.trans (toInt_ofNat_small g hg).symm), fun h => h ▸ toInt_ofNat_small g hg⟩

theorem pos_of_toInt_eq (s : BitVec 32) (i : Fin 50000) (h : s.toInt = (i.val : ℤ)) : pos s = i := by
  apply Fin.ext
  show min (wrap s).toInt.toNat 49999 = i.val
  unfold wrap
  rw [if_neg (by omega), h]
  omega

theorem pos_ofNat (i : Fin 50000) : pos (BitVec.ofNat 32 i.val) = i :=
  pos_of_toInt_eq _ i (toInt_ofNat_small _ (by omega))

theorem sum_split {M : Type*} [AddCommMonoid M] (f : Fin 850000 → M) :
    ∑ e : Fin 850000, f e
      = (∑ e : Fin 800000, f ⟨e.val, by omega⟩) + ∑ i : Fin 50000, f ⟨800000 + i.val, by omega⟩ :=
  Fin.sum_univ_add (a := 800000) (b := 50000) f

theorem dstF_edge (ei : Edges) (e : Fin 800000) : dstF ei ⟨e.val, by omega⟩ = dst ei e := dif_pos e.isLt

theorem srcF_edge (ei : Edges) (e : Fin 800000) : srcF ei ⟨e.val, by omega⟩ = src ei e := dif_pos e.isLt

theorem dstF_loop (ei : Edges) (i : Fin 50000) :
    dstF ei ⟨800000 + i.val, by omega⟩ = BitVec.ofNat 32 i.val := by simp [dstF]

theorem srcF_loop (ei : Edges) (i : Fin 50000) :
    srcF ei ⟨800000 + i.val, by omega⟩ = BitVec.ofNat 32 i.val := by simp [srcF]

-- The loop of node i' ends at node i exactly when i' = i.
theorem loop_ne (ei : Edges) (i i' : Fin 50000) (hne : i' ≠ i) :
    ¬ (dstF ei ⟨800000 + i'.val, by omega⟩).toInt = (i.val : ℤ) := by
  rw [dstF_loop, toInt_ofNat_small _ (by omega)]
  exact fun hc => hne (Fin.ext (by exact_mod_cast hc))

theorem sum_indicator_real {ι : Type*} (s : Finset ι) (p : ι → Prop) [DecidablePred p] :
    ∃ r : ℝ, 0 ≤ r ∧ (∑ e ∈ s, if p e then (1 : EReal) else 0) = (r : EReal) := by
  classical
  induction s using Finset.induction_on with
  | empty => exact ⟨0, le_refl _, by simp⟩
  | insert a s ha ih =>
    obtain ⟨r, hr, h⟩ := ih
    rw [Finset.sum_insert ha, h]
    by_cases hp : p a
    · exact ⟨1 + r, by linarith, by rw [if_pos hp, EReal.coe_add, EReal.coe_one]⟩
    · exact ⟨r, hr, by rw [if_neg hp, zero_add]⟩

theorem degR_eq (ei : Edges) (i : Fin 50000) : degR ei i = cntK ei i + 1 := by
  unfold degR cntK
  rw [sum_split, Fintype.sum_eq_single i fun i' hne => if_neg (loop_ne ei i i' hne), dstF_loop,
    toInt_ofNat_small _ (by omega), if_pos rfl]
  simp only [dstF_edge]

theorem dinv_facts (ei : Edges) (i : Fin 50000) :
    dinvR ei i = dinvK ei i ∧ 0 ≤ dinvK ei i ∧ dinvK ei i ≠ ⊤ := by
  obtain ⟨r, hr, h⟩ := sum_indicator_real (Finset.univ : Finset (Fin 800000))
    (fun e => (dst ei e).toInt = (i.val : ℤ))
  have hc : cntK ei i + 1 = ((r + 1 : ℝ) : EReal) := by
    unfold cntK
    rw [h, EReal.coe_add, EReal.coe_one]
  have hK : dinvK ei i = (((Real.sqrt (r + 1))⁻¹ : ℝ) : EReal) := by
    unfold dinvK
    rw [hc, Ideal.rsqrt_coe, if_neg (by linarith), if_neg (by linarith)]
  refine ⟨?_, ?_, ?_⟩
  · unfold dinvR
    rw [degR_eq, if_pos (by rw [hc]; exact EReal.coe_pos.mpr (by linarith))]
    rfl
  · rw [hK]
    exact EReal.coe_nonneg.mpr (inv_nonneg.mpr (Real.sqrt_nonneg _))
  · rw [hK]
    exact EReal.coe_ne_top _

theorem dinvR_eq (ei : Edges) (i : Fin 50000) : dinvR ei i = dinvK ei i := (dinv_facts ei i).1

-- Multiplication by c distributes over each insertion because 0 ≤ c < ⊤.
theorem mul_sum_of_nonneg {ι : Type*} (s : Finset ι) (c : EReal) (hc : 0 ≤ c) (hc' : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top hc hc', ih]

-- One layer: the target's factor comes out of the edges' sum, and of the loops only the node's own counts.
theorem layerR_eq_layerK (ei : Edges) (h : Arr2 50000 128) (W : Arr2 128 128) (b : Arr1 128) :
    layerR ei h W b = layerK ei h W b := by
  funext j
  obtain ⟨p, q, rfl⟩ : ∃ (p : Fin 50000) (q : Fin 128), j = ix2 p q := ⟨j 0, j 1, eq_ix2 j⟩
  obtain ⟨-, hd0, hdt⟩ := dinv_facts ei p
  have hm : ∀ L dp : EReal, L * (dp * dinvK ei p) = dinvK ei p * (L * dp) := fun L dp =>
    ((mul_comm _ _).trans (mul_assoc _ _ _)).symm
  unfold layerR layerK finK aggK scaleK
  simp only [show ix2 p q 0 = p from rfl, show ix2 p q 1 = q from rfl]
  rw [sum_split, EReal.left_distrib_of_nonneg_of_ne_top hd0 hdt, mul_sum_of_nonneg _ _ hd0 hdt]
  refine congrArg (· + b (ix1 q)) (congrArg₂ (· + ·) (Finset.sum_congr rfl fun e _ => ?_) ?_)
  · rw [dstF_edge, srcF_edge]
    by_cases hc : (dst ei e).toInt = (p.val : ℤ)
    · rw [if_pos hc, if_pos hc, pos_of_toInt_eq _ _ hc, dinvR_eq, dinvR_eq]
      exact hm _ _
    · rw [if_neg hc, if_neg hc, mul_zero]
  · rw [Fintype.sum_eq_single p fun i' hne => if_neg (loop_ne ei p i' hne), dstF_loop, srcF_loop,
      toInt_ofNat_small _ (by omega), if_pos rfl, pos_ofNat, dinvR_eq]
    exact hm _ _

theorem sizeR_eq_sizeK (batch : Groups) : sizeR batch = sizeK batch :=
  funext fun g => Finset.sum_congr rfl fun i _ =>
    if_congr (toInt_eq_iff_eq_ofNat _ g.val (by omega)) rfl rfl

theorem poolK_eq_poolR (batch : Groups) (h : Arr2 50000 128) (k : Fin 128) (g : Fin 256) :
    poolK batch h (ix2 k g) = poolR batch h (ix2 g k) := by
  unfold poolK poolR
  refine Finset.sum_congr rfl fun i _ => ?_
  rw [mul_ite, mul_one, mul_zero]
  exact (if_congr (toInt_eq_iff_eq_ofNat _ g.val (by omega)) rfl rfl).symm

theorem head_eq (batch : Groups) (h : Arr2 50000 128) (Wm1 : Arr2 128 256) (bm1 : Arr1 256)
    (Wm2 : Arr2 256 768) (bm2 : Arr1 768) :
    headK (poolK batch h) (sizeK batch) Wm1 bm1 Wm2 bm2
      = headR (poolR batch h) (sizeR batch) Wm1 bm1 Wm2 bm2 := by
  funext j
  obtain ⟨g, o, rfl⟩ : ∃ (g : Fin 256) (o : Fin 768), j = ix2 g o := ⟨j 0, j 1, eq_ix2 j⟩
  unfold headK headR
  rw [sizeR_eq_sizeK, max_comm 1]
  simp only [show ix2 g o 0 = g from rfl, poolK_eq_poolR]

theorem outK_eq_outR (x : Arr2 50000 128) (ei : Edges) (batch : Groups) (W1 : Arr2 128 128) (b1 : Arr1 128)
    (W2 : Arr2 128 128) (b2 : Arr1 128) (W3 : Arr2 128 128) (b3 : Arr1 128) (Wm1 : Arr2 128 256)
    (bm1 : Arr1 256) (Wm2 : Arr2 256 768) (bm2 : Arr1 768) :
    outK x ei batch W1 b1 W2 b2 W3 b3 Wm1 bm1 Wm2 bm2 = outR x ei batch W1 b1 W2 b2 W3 b3 Wm1 bm1 Wm2 bm2 := by
  unfold outK outR convK convR
  rw [layerR_eq_layerK, layerR_eq_layerK, layerR_eq_layerK, head_eq]

end Cert.Spec

end
-- ==== Proof.lean ====
import proofs.«430777_j3556232921556_3_alg».proof.Defs
import proofs.«430777_j3556232921556_3_alg».proof.Proof.Gen.Kernel
import proofs.«430777_j3556232921556_3_alg».proof.Proof.Gen.KernelIdeal
import proofs.«430777_j3556232921556_3_alg».proof.Proof.Gen.ReferenceIdeal
import proofs.«430777_j3556232921556_3_alg».proof.Proof.Gen.Pre_finite_inputs
import proofs.«430777_j3556232921556_3_alg».proof.Proof.K.Run
import proofs.«430777_j3556232921556_3_alg».proof.Proof.KI.Run
import proofs.«430777_j3556232921556_3_alg».proof.Proof.KI.Val
import proofs.«430777_j3556232921556_3_alg».proof.Proof.Ref.Value
import proofs.«430777_j3556232921556_3_alg».proof.Proof.SpecBridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame (F := Bits) m ρ

theorem frame_ki : @Cert.frame_KernelIdeal Cert.KernelIdeal.Gen.facts Cert.Pre_finite_inputs.Gen.facts :=
  fun m ρ _ => Cert.KernelIdeal.Gen.frame (F := Ideal) m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end at the specification's function of the arguments, written in two ways that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.o9 (F := Ideal) m c, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  refine (Cert.ReferenceIdeal.RefValue.ref_value m' c).trans ?_
  refine Eq.trans ?_ (Cert.KernelIdeal.Gen.kernel_value m c).symm
  unfold Cert.ReferenceIdeal.RefValue.refOut Cert.KernelIdeal.Gen.kerOut
  rw [h0, h1, h2, h3, h4, h5, h6, h7, h8, h9, h10, h11, h12]
  exact (Cert.Spec.outK_eq_outR _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
